-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_arg2 : IVec S640000 32) (main_v65 : IVec S_ 1) (main_v67 : IVec S640000 1) : IVec S_ 1 :=
  let main_c_26 : IVec S_ 32 := constantI S_ 32 10000#32
  let main_v68 : IVec S640000 32 := broadcastInDim S640000 ![] bcast_S_S640000 main_c_26
  let main_v69 : IVec S640000 1 := cmpi .slt main_arg2 main_v68
  let main_v70 : IVec S640000 1 := andi main_v67 main_v69
  let main_c_27 : IVec S_ 1 := constantI S_ 1 1#1
  let main_v71 : IVec S_ 1 := (fun x v => Host.reduce IntOp.andi x v reducesTo_S640000_S_d0 h_S_) main_v70 main_c_27
  let main_v72 : IVec S_ 1 := andi main_v65 main_v71
  main_v72

def fn_part3 {F : FTy → Type} [FloatOps F] (main_arg1 : IVec S640000 32) (main_arg2 : IVec S640000 32) (main_arg13 : FVec F S40 .f32) (main_v48 : IVec S_ 1) (main_v49 : FVec F S128x40 .f32) (main_v50 : FVec F S128x40 .f32) : IVec S_ 1 :=
  let main_v51 : IVec S128x40 1 := cmpf .olt main_v49 main_v50
  let main_c_19 : IVec S_ 1 := constantI S_ 1 1#1
  let main_v52 : IVec S_ 1 := (fun x v => Host.reduce IntOp.andi x v reducesTo_S128x40_S_d0_1 h_S_) main_v51 main_c_19
  let main_v53 : IVec S_ 1 := andi main_v48 main_v52
  let main_v54 : FVec F S40 .f32 := Host.absf main_arg13
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  let main_c_22 : IVec S_ 32 := constantI S_ 32 0#32
  let main_v59 : IVec S640000 32 := broadcastInDim S640000 ![] bcast_S_S640000 main_c_22
  let main_v60 : IVec S640000 1 := cmpi .sge main_arg1 main_v59
  let main_c_23 : IVec S_ 32 := constantI S_ 32 10000#32
  let main_v61 : IVec S640000 32 := broadcastInDim S640000 ![] bcast_S_S640000 main_c_23
  let main_v62 : IVec S640000 1 := cmpi .slt main_arg1 main_v61
  let main_v63 : IVec S640000 1 := andi main_v60 main_v62
  let main_c_24 : IVec S_ 1 := constantI S_ 1 1#1
  let main_v64 : IVec S_ 1 := (fun x v => Host.reduce IntOp.andi x v reducesTo_S640000_S_d0 h_S_) main_v63 main_c_24
  let main_v65 : IVec S_ 1 := andi main_v58 main_v64
  let main_c_25 : IVec S_ 32 := constantI S_ 32 0#32
  let main_v66 : IVec S640000 32 := broadcastInDim S640000 ![] bcast_S_S640000 main_c_25
  let main_v67 : IVec S640000 1 := cmpi .sge main_arg2 main_v66
  fn_part4 (F := F) main_arg2 main_v65 main_v67

def fn_part2 {F : FTy → Type} [FloatOps F] (main_arg1 : IVec S640000 32) (main_arg2 : IVec S640000 32) (main_arg9 : FVec F S128 .f32) (main_arg10 : FVec F S128 .f32) (main_arg11 : FVec F S128 .f32) (main_arg12 : FVec F S128x40 .f32) (main_arg13 : FVec F S40 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x40 .f32 := Host.absf main_arg12
  let main_cst_18 : FVec F S_ .f32 := constant S_ .f32 0x7F800000#32
  let main_v50 : FVec F S128x40 .f32 := broadcastInDim S128x40 ![] bcast_S_S128x40 main_cst_18
  fn_part3 (F := F) main_arg1 main_arg2 main_arg13 main_v48 main_v49 main_v50

def fn_part1 {F : FTy → Type} [FloatOps F] (main_arg1 : IVec S640000 32) (main_arg2 : IVec S640000 32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128x40 .f32) (main_arg13 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg2 main_arg9 main_arg10 main_arg11 main_arg12 main_arg13 main_v33

def fn {F : FTy → Type} [FloatOps F] (main_arg0 : FVec F S10000x128 .f32) (main_arg1 : IVec S640000 32) (main_arg2 : IVec S640000 32) (main_arg3 : FVec F S640000 .f32) (main_arg4 : FVec F S128x128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128x40 .f32) (main_arg13 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000 .f32 := Host.absf main_arg3
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg2 main_arg6 main_arg7 main_arg8 main_arg9 main_arg10 main_arg11 main_arg12 main_arg13 main_v13 main_v16
-- ==== Kernel.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S10240x10240 : Shape := ⟨2, ![10240, 10240]⟩
abbrev S640000x1 : Shape := ⟨2, ![640000, 1]⟩
abbrev S640000x2 : Shape := ⟨2, ![640000, 2]⟩
abbrev S10240x128 : Shape := ⟨2, ![10240, 128]⟩
abbrev S1x128 : Shape := ⟨2, ![1, 128]⟩
abbrev S1280x2560 : Shape := ⟨2, ![1280, 2560]⟩
abbrev S2560x128 : Shape := ⟨2, ![2560, 128]⟩
abbrev S1280x128 : Shape := ⟨2, ![1280, 128]⟩
abbrev S10000x40 : Shape := ⟨2, ![10000, 40]⟩
abbrev S10000 : Shape := ⟨1, ![10000]⟩
abbrev S10000x1 : Shape := ⟨2, ![10000, 1]⟩

abbrev nBuf : Space → Nat
  | .hbm => 142
  | .vmem => 27
  | .smem => 0
  | _ => 0

abbrev hbmTy0_0 (i : Nat) : BufTy := match i % 128 with
  | 0 => ⟨S10000x128, .f32⟩
  | 1 => ⟨S640000, .i32⟩
  | 2 => ⟨S640000, .i32⟩
  | 3 => ⟨S640000, .f32⟩
  | 4 => ⟨S128x128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128x40, .f32⟩
  | 13 => ⟨S40, .f32⟩
  | 14 => ⟨S_, .f32⟩
  | 15 => ⟨S10240x10240, .f32⟩
  | 16 => ⟨S_, .i32⟩
  | 17 => ⟨S640000, .i32⟩
  | 18 => ⟨S640000, .i1⟩
  | 19 => ⟨S_, .i32⟩
  | 20 => ⟨S640000, .i32⟩
  | 21 => ⟨S640000, .i32⟩
  | 22 => ⟨S640000, .i32⟩
  | 23 => ⟨S_, .i32⟩
  | 24 => ⟨S640000, .i32⟩
  | 25 => ⟨S640000, .i1⟩
  | 26 => ⟨S_, .i32⟩
  | 27 => ⟨S640000, .i32⟩
  | 28 => ⟨S640000, .i32⟩
  | 29 => ⟨S640000, .i32⟩
  | 30 => ⟨S640000x1, .i32⟩
  | 31 => ⟨S640000x1, .i32⟩
  | 32 => ⟨S640000x2, .i32⟩
  | 33 => ⟨S10240x10240, .f32⟩
  | 34 => ⟨S10240x10240, .bf16⟩
  | 35 => ⟨S_, .i32⟩
  | 36 => ⟨S_, .f32⟩
  | 37 => ⟨S128x128, .f32⟩
  | 38 => ⟨S_, .i32⟩
  | 39 => ⟨S_, .f32⟩
  | 40 => ⟨S128, .f32⟩
  | 41 => ⟨S_, .i32⟩
  | 42 => ⟨S_, .f32⟩
  | 43 => ⟨S10240x128, .f32⟩
  | 44 => ⟨S10240x128, .bf16⟩
  | 45 => ⟨S128x128, .bf16⟩
  | 46 => ⟨S1x128, .f32⟩
  | 47 => ⟨S10240x128, .bf16⟩
  | 48 => ⟨S10000x128, .bf16⟩
  | 49 => ⟨S10000x128, .f32⟩
  | 50 => ⟨S_, .f32⟩
  | 51 => ⟨S128, .f32⟩
  | 52 => ⟨S_, .f32⟩
  | 53 => ⟨S128, .f32⟩
  | 54 => ⟨S128, .f32⟩
  | 55 => ⟨S1x128, .f32⟩
  | 56 => ⟨S10000x128, .f32⟩
  | 57 => ⟨S10000x128, .f32⟩
  | 58 => ⟨S10000x128, .f32⟩
  | 59 => ⟨S_, .f32⟩
  | 60 => ⟨S128, .f32⟩
  | 61 => ⟨S_, .f32⟩
  | 62 => ⟨S128, .f32⟩
  | 63 => ⟨S128, .f32⟩
  | 64 => ⟨S1x128, .f32⟩
  | 65 => ⟨S10000x128, .f32⟩
  | 66 => ⟨S10000x128, .f32⟩
  | 67 => ⟨S1x128, .f32⟩
  | 68 => ⟨S10000x128, .f32⟩
  | 69 => ⟨S10000x128, .f32⟩
  | 70 => ⟨S_, .f32⟩
  | 71 => ⟨S128, .f32⟩
  | 72 => ⟨S128, .f32⟩
  | 73 => ⟨S128, .f32⟩
  | 74 => ⟨S1x128, .f32⟩
  | 75 => ⟨S10000x128, .f32⟩
  | 76 => ⟨S10000x128, .f32⟩
  | 77 => ⟨S1x128, .f32⟩
  | 78 => ⟨S10000x128, .f32⟩
  | 79 => ⟨S10000x128, .f32⟩
  | 80 => ⟨S_, .i32⟩
  | 81 => ⟨S_, .f32⟩
  | 82 => ⟨S10240x128, .f32⟩
  | 83 => ⟨S10240x128, .bf16⟩
  | 84 => ⟨S128x128, .bf16⟩
  | 85 => ⟨S1x128, .f32⟩
  | 86 => ⟨S10240x128, .bf16⟩
  | 87 => ⟨S10000x128, .bf16⟩
  | 88 => ⟨S10000x128, .f32⟩
  | 89 => ⟨S_, .f32⟩
  | 90 => ⟨S128, .f32⟩
  | 91 => ⟨S_, .f32⟩
  | 92 => ⟨S128, .f32⟩
  | 93 => ⟨S128, .f32⟩
  | 94 => ⟨S1x128, .f32⟩
  | 95 => ⟨S10000x128, .f32⟩
  | 96 => ⟨S10000x128, .f32⟩
  | 97 => ⟨S10000x128, .f32⟩
  | 98 => ⟨S_, .f32⟩
  | 99 => ⟨S128, .f32⟩
  | 100 => ⟨S_, .f32⟩
  | 101 => ⟨S128, .f32⟩
  | 102 => ⟨S128, .f32⟩
  | 103 => ⟨S1x128, .f32⟩
  | 104 => ⟨S10000x128, .f32⟩
  | 105 => ⟨S10000x128, .f32⟩
  | 106 => ⟨S1x128, .f32⟩
  | 107 => ⟨S10000x128, .f32⟩
  | 108 => ⟨S10000x128, .f32⟩
  | 109 => ⟨S_, .f32⟩
  | 110 => ⟨S128, .f32⟩
  | 111 => ⟨S128, .f32⟩
  | 112 => ⟨S128, .f32⟩
  | 113 => ⟨S1x128, .f32⟩
  | 114 => ⟨S10000x128, .f32⟩
  | 115 => ⟨S10000x128, .f32⟩
  | 116 => ⟨S1x128, .f32⟩
  | 117 => ⟨S10000x128, .f32⟩
  | 118 => ⟨S10000x128, .f32⟩
  | 119 => ⟨S_, .i32⟩
  | 120 => ⟨S_, .f32⟩
  | 121 => ⟨S10240x128, .f32⟩
  | 122 => ⟨S10240x128, .bf16⟩
  | 123 => ⟨S128x128, .bf16⟩
  | 124 => ⟨S1x128, .f32⟩
  | 125 => ⟨S10240x128, .f32⟩
  | 126 => ⟨S10000x40, .f32⟩
  | 127 => ⟨S_, .f32⟩
  | _ => ⟨S10000x128, .f32⟩

abbrev hbmTy0_1 (i : Nat) : BufTy := match i % 128 with
  | 0 => ⟨S10000, .f32⟩
  | 1 => ⟨S_, .f32⟩
  | 2 => ⟨S10000, .f32⟩
  | 3 => ⟨S10000, .f32⟩
  | 4 => ⟨S10000x1, .f32⟩
  | 5 => ⟨S10000x40, .f32⟩
  | 6 => ⟨S10000x40, .f32⟩
  | 7 => ⟨S10000x40, .f32⟩
  | 8 => ⟨S_, .f32⟩
  | 9 => ⟨S10000, .f32⟩
  | 10 => ⟨S10000x1, .f32⟩
  | 11 => ⟨S10000x1, .f32⟩
  | 12 => ⟨S10000x40, .f32⟩
  | 13 => ⟨S10000x40, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S1280x2560, .bf16⟩
  | .local _ .vmem, ⟨1, _⟩ => ⟨S1280x2560, .bf16⟩
  | .local _ .vmem, ⟨2, _⟩ => ⟨S2560x128, .bf16⟩
  | .local _ .vmem, ⟨3, _⟩ => ⟨S2560x128, .bf16⟩
  | .local _ .vmem, ⟨4, _⟩ => ⟨S128x128, .bf16⟩
  | .local _ .vmem, ⟨5, _⟩ => ⟨S1x128, .f32⟩
  | .local _ .vmem, ⟨6, _⟩ => ⟨S1280x128, .bf16⟩
  | .local _ .vmem, ⟨7, _⟩ => ⟨S1280x128, .bf16⟩
  | .local _ .vmem, ⟨8, _⟩ => ⟨S1280x128, .f32⟩
  | .local _ .vmem, ⟨9, _⟩ => ⟨S1280x2560, .bf16⟩
  | .local _ .vmem, ⟨10, _⟩ => ⟨S1280x2560, .bf16⟩
  | .local _ .vmem, ⟨11, _⟩ => ⟨S2560x128, .bf16⟩
  | .local _ .vmem, ⟨12, _⟩ => ⟨S2560x128, .bf16⟩
  | .local _ .vmem, ⟨13, _⟩ => ⟨S128x128, .bf16⟩
  | .local _ .vmem, ⟨14, _⟩ => ⟨S1x128, .f32⟩
  | .local _ .vmem, ⟨15, _⟩ => ⟨S1280x128, .bf16⟩
  | .local _ .vmem, ⟨16, _⟩ => ⟨S1280x128, .bf16⟩
  | .local _ .vmem, ⟨17, _⟩ => ⟨S1280x128, .f32⟩
  | .local _ .vmem, ⟨18, _⟩ => ⟨S1280x2560, .bf16⟩
  | .local _ .vmem, ⟨19, _⟩ => ⟨S1280x2560, .bf16⟩
  | .local _ .vmem, ⟨20, _⟩ => ⟨S2560x128, .bf16⟩
  | .local _ .vmem, ⟨21, _⟩ => ⟨S2560x128, .bf16⟩
  | .local _ .vmem, ⟨22, _⟩ => ⟨S128x128, .bf16⟩
  | .local _ .vmem, ⟨23, _⟩ => ⟨S1x128, .f32⟩
  | .local _ .vmem, ⟨24, _⟩ => ⟨S1280x128, .f32⟩
  | .local _ .vmem, ⟨25, _⟩ => ⟨S1280x128, .f32⟩
  | .local _ .vmem, ⟨26, _⟩ => ⟨S1280x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c_1 : Ref sig .tc := ⟨.hbm, 23, rfl⟩
abbrev main_v6 : Ref sig .tc := ⟨.hbm, 24, rfl⟩
abbrev main_v7 : Ref sig .tc := ⟨.hbm, 25, rfl⟩
abbrev main_c_2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_call0_v0 : Ref sig .tc := ⟨.hbm, 36, rfl⟩
abbrev main_v16 : Ref sig .tc := ⟨.hbm, 37, rfl⟩
abbrev main_c_4 : Ref sig .tc := ⟨.hbm, 38, rfl⟩
abbrev main_call1_v0 : Ref sig .tc := ⟨.hbm, 39, rfl⟩
abbrev main_v17 : Ref sig .tc := ⟨.hbm, 40, rfl⟩
abbrev main_c_5 : Ref sig .tc := ⟨.hbm, 41, rfl⟩
abbrev main_call2_v0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_6 : Ref sig .tc := ⟨.hbm, 50, rfl⟩
abbrev main_v25 : Ref sig .tc := ⟨.hbm, 51, rfl⟩
abbrev main_cst_7 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_8 : Ref sig .tc := ⟨.hbm, 59, rfl⟩
abbrev main_v32 : Ref sig .tc := ⟨.hbm, 60, rfl⟩
abbrev main_cst_9 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_10 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_11 : Ref sig .tc := ⟨.hbm, 80, rfl⟩
abbrev main_call3_v0 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_cst_13 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_14 : Ref sig .tc := ⟨.hbm, 98, rfl⟩
abbrev main_v64 : Ref sig .tc := ⟨.hbm, 99, rfl⟩
abbrev main_cst_15 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_16 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_17 : Ref sig .tc := ⟨.hbm, 119, rfl⟩
abbrev main_call4_v0 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_call5_cst : Ref sig .tc := ⟨.hbm, 127, rfl⟩
abbrev main_call5_v0 : Ref sig .tc := ⟨.hbm, 128, rfl⟩
abbrev main_call5_cst_0 : Ref sig .tc := ⟨.hbm, 129, rfl⟩
abbrev main_call5_v1 : Ref sig .tc := ⟨.hbm, 130, rfl⟩
abbrev main_call5_v2 : Ref sig .tc := ⟨.hbm, 131, rfl⟩
abbrev main_call5_v3 : Ref sig .tc := ⟨.hbm, 132, rfl⟩
abbrev main_call5_v4 : Ref sig .tc := ⟨.hbm, 133, rfl⟩
abbrev main_call5_v5 : Ref sig .tc := ⟨.hbm, 134, rfl⟩
abbrev main_call5_v6 : Ref sig .tc := ⟨.hbm, 135, rfl⟩
abbrev main_call5_cst_1 : Ref sig .tc := ⟨.hbm, 136, rfl⟩
abbrev main_call5_v7 : Ref sig .tc := ⟨.hbm, 137, rfl⟩
abbrev main_call5_v8 : Ref sig .tc := ⟨.hbm, 138, rfl⟩
abbrev main_call5_v9 : Ref sig .tc := ⟨.hbm, 139, rfl⟩
abbrev main_call5_v10 : Ref sig .tc := ⟨.hbm, 140, rfl⟩
abbrev main_v88 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1280x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2560x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1280x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1280x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2560x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1280x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1280x2560 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2560x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1280x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  bcast_S_S10240x10240 : S_.BroadcastsInDim S10240x10240 (![] : Fin 0 → Fin S10240x10240.rank)
  bcast_S_S640000 : S_.BroadcastsInDim S640000 (![] : Fin 0 → Fin S640000.rank)
  bcast_S640000_S640000x1_0 : S640000.BroadcastsInDim S640000x1 (![0] : Fin 1 → Fin S640000x1.rank)
  concatenates_S640000x1_S640000x1_S640000x2_d1 : Shape.Concatenates [S640000x1, S640000x1] S640000x2 1
  bitsLt_bf16_f32 : FTy.bits .bf16 < FTy.bits .f32
  pads_S128x40_S128x128_000_0880 : S128x40.Pads (![0, 0] : Fin 2 → Nat) ![0, 88] ![0, 0] S128x128
  h_S_ : 0 < S_.numel
  pads_S40_S128_0880 : S40.Pads (![0] : Fin 1 → Nat) ![88] ![0] S128
  pads_S10000x128_S10240x128_02400_000 : S10000x128.Pads (![0, 0] : Fin 2 → Nat) ![240, 0] ![0, 0] S10240x128
  shapeCasts_S128_S1x128 : S128.ShapeCasts S1x128
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  inb_S1280x2560_S1280x2560_0_0 : ∀ a, (![0, 0] : Fin 2 → Nat) a + S1280x2560.size a ≤ S1280x2560.size a
  h_S1280x2560 : 0 < S1280x2560.numel
  shapeCasts_S1280x2560_S1280x2560 : S1280x2560.ShapeCasts S1280x2560
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1280x128 : S1x128.Broadcasts S1280x128
  packedbf16_S1280x128_S1280x128_0_0 : (Rect.unit (s := S1280x128) ![0, 0] S1280x128.size inb_S1280x128_S1280x128_0_0).PackedRows (EltTy.packing .bf16)
  slices_S10240x128_S10000x128_0_0 : S10240x128.Slices ![0, 0] S10000x128
  reducesTo_S10000x128_S128_d0 : S10000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  slices_S10240x128_S10000x40_0_0 : S10240x128.Slices ![0, 0] S10000x40
  reducesTo_S10000x40_S10000_d1 : S10000x40.ReducesTo [1] S10000
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  scatter_S10240x10240_S640000x2_S640000_n_01_01_1_wf : ScatterDims.WF S10240x10240 S640000x2 S640000 [] [0, 1] [0, 1] 1
  dot_S1280x2560_S2560x128_S1280x128_1_0_0_1_n_n_wf : DotDims.WF S1280x2560 S2560x128 S1280x128 [1] [0] [0] [1] [] []
  dot_S1280x128_S128x128_S1280x128_1_0_0_1_n_n_wf : DotDims.WF S1280x128 S128x128 S1280x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x2560.size a ≤ S10240x10240.size a
  hwx0_0 : ∀ i : grid0.Coords, EltTy.bits .bf16 = 32 ∨ (Rect.block (s := S10240x10240) S1280x2560.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x128.size a ≤ S10240x128.size a
  hwx0_1 : ∀ i : grid0.Coords, EltTy.bits .bf16 = 32 ∨ (Rect.block (s := S10240x128) S2560x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1280x128.size a ≤ S10240x128.size a
  hwx0_4 : ∀ i : grid0.Coords, EltTy.bits .bf16 = 32 ∨ (Rect.block (s := S10240x128) S1280x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x2560.size a ≤ S10240x10240.size a
  hwx1_0 : ∀ i : grid1.Coords, EltTy.bits .bf16 = 32 ∨ (Rect.block (s := S10240x10240) S1280x2560.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2560x128.size a ≤ S10240x128.size a
  hwx1_1 : ∀ i : grid1.Coords, EltTy.bits .bf16 = 32 ∨ (Rect.block (s := S10240x128) S2560x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1280x128.size a ≤ S10240x128.size a
  hwx1_4 : ∀ i : grid1.Coords, EltTy.bits .bf16 = 32 ∨ (Rect.block (s := S10240x128) S1280x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1280x2560.size a ≤ S10240x10240.size a
  hwx2_0 : ∀ i : grid2.Coords, EltTy.bits .bf16 = 32 ∨ (Rect.block (s := S10240x10240) S1280x2560.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2560x128.size a ≤ S10240x128.size a
  hwx2_1 : ∀ i : grid2.Coords, EltTy.bits .bf16 = 32 ∨ (Rect.block (s := S10240x128) S2560x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1280x128.size a ≤ S10240x128.size a
  hwx2_4 : ∀ i : grid2.Coords, EltTy.bits .f32 = 32 ∨ (Rect.block (s := S10240x128) S1280x128.size (cc2_transform_4 i) (hinb2_4 i)).WholeWords (EltTy.packing .f32)

variable [Facts₀]

def scatter_S10240x10240_S640000x2_S640000_n_01_01_1 : ScatterDims S10240x10240 S640000x2 S640000 where
  updateWindowDims := []
  insertedWindowDims := [0, 1]
  scatterDimsToOperandDims := [0, 1]
  indexVectorDim := 1
  wf := scatter_S10240x10240_S640000x2_S640000_n_01_01_1_wf
def dot_S1280x2560_S2560x128_S1280x128_1_0_0_1_n_n : DotDims S1280x2560 S2560x128 S1280x128 where
  lhsContracting := [1]
  rhsContracting := [0]
  lhsNonContracting := [0]
  rhsNonContracting := [1]
  lhsBatch := []
  rhsBatch := []
  wf := dot_S1280x2560_S2560x128_S1280x128_1_0_0_1_n_n_wf
def dot_S1280x128_S128x128_S1280x128_1_0_0_1_n_n : DotDims S1280x128 S128x128 S1280x128 where
  lhsContracting := [1]
  rhsContracting := [0]
  lhsNonContracting := [0]
  rhsNonContracting := [1]
  lhsBatch := []
  rhsBatch := []
  wf := dot_S1280x128_S128x128_S1280x128_1_0_0_1_n_n_wf

abbrev win0_0 : Pipeline.Window sig grid0 :=
  Pipeline.Window.ofSpec (Memref.whole main_v15) S1280x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2560x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1280x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v15) S1280x2560.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S2560x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1280x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v15) S1280x2560.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S2560x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v84) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v85) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v86) S1280x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S640000x1 : Shape := ⟨2, ![640000, 1]⟩
abbrev S_ : Shape := ⟨0, ![]⟩
abbrev S1 : Shape := ⟨1, ![1]⟩
abbrev S1x1 : Shape := ⟨2, ![1, 1]⟩
abbrev S640000x128 : Shape := ⟨2, ![640000, 128]⟩
abbrev S1x128 : Shape := ⟨2, ![1, 128]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 197
  | .vmem => 0
  | .smem => 0
  | _ => 0

abbrev hbmTy0_0 (i : Nat) : BufTy := match i % 128 with
  | 0 => ⟨S10000x128, .f32⟩
  | 1 => ⟨S640000, .i32⟩
  | 2 => ⟨S640000, .i32⟩
  | 3 => ⟨S640000, .f32⟩
  | 4 => ⟨S128x128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128x40, .f32⟩
  | 13 => ⟨S40, .f32⟩
  | 14 => ⟨S640000x1, .f32⟩
  | 15 => ⟨S_, .i32⟩
  | 16 => ⟨S640000, .i32⟩
  | 17 => ⟨S640000, .i1⟩
  | 18 => ⟨S_, .i32⟩
  | 19 => ⟨S640000, .i32⟩
  | 20 => ⟨S640000, .i32⟩
  | 21 => ⟨S640000, .i32⟩
  | 22 => ⟨S640000x1, .i32⟩
  | 23 => ⟨S1, .i32⟩
  | 24 => ⟨S_, .i32⟩
  | 25 => ⟨S640000x1, .i32⟩
  | 26 => ⟨S640000x1, .i1⟩
  | 27 => ⟨S1x1, .i32⟩
  | 28 => ⟨S640000x1, .i32⟩
  | 29 => ⟨S640000x1, .i1⟩
  | 30 => ⟨S640000x1, .i1⟩
  | 31 => ⟨S_, .i1⟩
  | 32 => ⟨S640000, .i1⟩
  | 33 => ⟨S640000x128, .f32⟩
  | 34 => ⟨S640000x128, .i1⟩
  | 35 => ⟨S_, .f32⟩
  | 36 => ⟨S640000x128, .f32⟩
  | 37 => ⟨S640000x128, .f32⟩
  | 38 => ⟨S640000x128, .f32⟩
  | 39 => ⟨S640000x128, .f32⟩
  | 40 => ⟨S_, .f32⟩
  | 41 => ⟨S10000x128, .f32⟩
  | 42 => ⟨S640000x1, .i32⟩
  | 43 => ⟨S10000x128, .f32⟩
  | 44 => ⟨S10000x128, .f32⟩
  | 45 => ⟨S1x128, .f32⟩
  | 46 => ⟨S10000x128, .f32⟩
  | 47 => ⟨S10000x128, .f32⟩
  | 48 => ⟨S_, .f32⟩
  | 49 => ⟨S10000x128, .f32⟩
  | 50 => ⟨S10000x128, .f32⟩
  | 51 => ⟨S_, .f32⟩
  | 52 => ⟨S128, .f32⟩
  | 53 => ⟨S_, .f32⟩
  | 54 => ⟨S128, .f32⟩
  | 55 => ⟨S128, .f32⟩
  | 56 => ⟨S1x128, .f32⟩
  | 57 => ⟨S10000x128, .f32⟩
  | 58 => ⟨S10000x128, .f32⟩
  | 59 => ⟨S10000x128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S10000x128, .f32⟩
  | 67 => ⟨S10000x128, .f32⟩
  | 68 => ⟨S1x128, .f32⟩
  | 69 => ⟨S10000x128, .f32⟩
  | 70 => ⟨S10000x128, .f32⟩
  | 71 => ⟨S_, .f32⟩
  | 72 => ⟨S128, .f32⟩
  | 73 => ⟨S128, .f32⟩
  | 74 => ⟨S128, .f32⟩
  | 75 => ⟨S1x128, .f32⟩
  | 76 => ⟨S10000x128, .f32⟩
  | 77 => ⟨S10000x128, .f32⟩
  | 78 => ⟨S1x128, .f32⟩
  | 79 => ⟨S10000x128, .f32⟩
  | 80 => ⟨S10000x128, .f32⟩
  | 81 => ⟨S640000x1, .f32⟩
  | 82 => ⟨S_, .i32⟩
  | 83 => ⟨S640000, .i32⟩
  | 84 => ⟨S640000, .i1⟩
  | 85 => ⟨S_, .i32⟩
  | 86 => ⟨S640000, .i32⟩
  | 87 => ⟨S640000, .i32⟩
  | 88 => ⟨S640000, .i32⟩
  | 89 => ⟨S640000x1, .i32⟩
  | 90 => ⟨S1, .i32⟩
  | 91 => ⟨S_, .i32⟩
  | 92 => ⟨S640000x1, .i32⟩
  | 93 => ⟨S640000x1, .i1⟩
  | 94 => ⟨S1x1, .i32⟩
  | 95 => ⟨S640000x1, .i32⟩
  | 96 => ⟨S640000x1, .i1⟩
  | 97 => ⟨S640000x1, .i1⟩
  | 98 => ⟨S_, .i1⟩
  | 99 => ⟨S640000, .i1⟩
  | 100 => ⟨S640000x128, .f32⟩
  | 101 => ⟨S640000x128, .i1⟩
  | 102 => ⟨S_, .f32⟩
  | 103 => ⟨S640000x128, .f32⟩
  | 104 => ⟨S640000x128, .f32⟩
  | 105 => ⟨S640000x128, .f32⟩
  | 106 => ⟨S640000x128, .f32⟩
  | 107 => ⟨S_, .f32⟩
  | 108 => ⟨S10000x128, .f32⟩
  | 109 => ⟨S640000x1, .i32⟩
  | 110 => ⟨S10000x128, .f32⟩
  | 111 => ⟨S10000x128, .f32⟩
  | 112 => ⟨S1x128, .f32⟩
  | 113 => ⟨S10000x128, .f32⟩
  | 114 => ⟨S10000x128, .f32⟩
  | 115 => ⟨S_, .f32⟩
  | 116 => ⟨S10000x128, .f32⟩
  | 117 => ⟨S10000x128, .f32⟩
  | 118 => ⟨S_, .f32⟩
  | 119 => ⟨S128, .f32⟩
  | 120 => ⟨S_, .f32⟩
  | 121 => ⟨S128, .f32⟩
  | 122 => ⟨S128, .f32⟩
  | 123 => ⟨S1x128, .f32⟩
  | 124 => ⟨S10000x128, .f32⟩
  | 125 => ⟨S10000x128, .f32⟩
  | 126 => ⟨S10000x128, .f32⟩
  | 127 => ⟨S_, .f32⟩
  | _ => ⟨S10000x128, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S1x128, .f32⟩
  | 5 => ⟨S10000x128, .f32⟩
  | 6 => ⟨S10000x128, .f32⟩
  | 7 => ⟨S1x128, .f32⟩
  | 8 => ⟨S10000x128, .f32⟩
  | 9 => ⟨S10000x128, .f32⟩
  | 10 => ⟨S_, .f32⟩
  | 11 => ⟨S128, .f32⟩
  | 12 => ⟨S128, .f32⟩
  | 13 => ⟨S128, .f32⟩
  | 14 => ⟨S1x128, .f32⟩
  | 15 => ⟨S10000x128, .f32⟩
  | 16 => ⟨S10000x128, .f32⟩
  | 17 => ⟨S1x128, .f32⟩
  | 18 => ⟨S10000x128, .f32⟩
  | 19 => ⟨S10000x128, .f32⟩
  | 20 => ⟨S640000x1, .f32⟩
  | 21 => ⟨S_, .i32⟩
  | 22 => ⟨S640000, .i32⟩
  | 23 => ⟨S640000, .i1⟩
  | 24 => ⟨S_, .i32⟩
  | 25 => ⟨S640000, .i32⟩
  | 26 => ⟨S640000, .i32⟩
  | 27 => ⟨S640000, .i32⟩
  | 28 => ⟨S640000x1, .i32⟩
  | 29 => ⟨S1, .i32⟩
  | 30 => ⟨S_, .i32⟩
  | 31 => ⟨S640000x1, .i32⟩
  | 32 => ⟨S640000x1, .i1⟩
  | 33 => ⟨S1x1, .i32⟩
  | 34 => ⟨S640000x1, .i32⟩
  | 35 => ⟨S640000x1, .i1⟩
  | 36 => ⟨S640000x1, .i1⟩
  | 37 => ⟨S_, .i1⟩
  | 38 => ⟨S640000, .i1⟩
  | 39 => ⟨S640000x128, .f32⟩
  | 40 => ⟨S640000x128, .i1⟩
  | 41 => ⟨S_, .f32⟩
  | 42 => ⟨S640000x128, .f32⟩
  | 43 => ⟨S640000x128, .f32⟩
  | 44 => ⟨S640000x128, .f32⟩
  | 45 => ⟨S640000x128, .f32⟩
  | 46 => ⟨S_, .f32⟩
  | 47 => ⟨S10000x128, .f32⟩
  | 48 => ⟨S640000x1, .i32⟩
  | 49 => ⟨S10000x128, .f32⟩
  | 50 => ⟨S10000x40, .f32⟩
  | 51 => ⟨S1x40, .f32⟩
  | 52 => ⟨S10000x40, .f32⟩
  | 53 => ⟨S10000x40, .f32⟩
  | 54 => ⟨S_, .f32⟩
  | 55 => ⟨S10000, .f32⟩
  | 56 => ⟨S_, .f32⟩
  | 57 => ⟨S10000, .f32⟩
  | 58 => ⟨S10000, .f32⟩
  | 59 => ⟨S10000x1, .f32⟩
  | 60 => ⟨S10000x40, .f32⟩
  | 61 => ⟨S10000x40, .f32⟩
  | 62 => ⟨S10000x40, .f32⟩
  | 63 => ⟨S_, .f32⟩
  | 64 => ⟨S10000, .f32⟩
  | 65 => ⟨S10000x1, .f32⟩
  | 66 => ⟨S10000x1, .f32⟩
  | 67 => ⟨S10000x40, .f32⟩
  | 68 => ⟨S10000x40, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_cst : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_call1_cst : Ref sig .tc := ⟨.hbm, 48, rfl⟩
abbrev main_call1_v0 : Ref sig .tc := ⟨.hbm, 49, rfl⟩
abbrev main_v11 : Ref sig .tc := ⟨.hbm, 50, rfl⟩
abbrev main_cst_0 : Ref sig .tc := ⟨.hbm, 51, rfl⟩
abbrev main_v12 : Ref sig .tc := ⟨.hbm, 52, rfl⟩
abbrev main_cst_1 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_cst_2 : Ref sig .tc := ⟨.hbm, 60, rfl⟩
abbrev main_v19 : Ref sig .tc := ⟨.hbm, 61, rfl⟩
abbrev main_cst_3 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_cst_4 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_call2_c : Ref sig .tc := ⟨.hbm, 82, rfl⟩
abbrev main_call2_v0 : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_c_1 : Ref sig .tc := ⟨.hbm, 90, rfl⟩
abbrev main_call2_c_2 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_3 : Ref sig .tc := ⟨.hbm, 98, rfl⟩
abbrev main_call2_v12 : Ref sig .tc := ⟨.hbm, 99, rfl⟩
abbrev main_call2_v13 : Ref sig .tc := ⟨.hbm, 100, rfl⟩
abbrev main_call2_v14 : Ref sig .tc := ⟨.hbm, 101, rfl⟩
abbrev main_call2_cst : Ref sig .tc := ⟨.hbm, 102, rfl⟩
abbrev main_call2_v15 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_cst_5 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_call3_cst : Ref sig .tc := ⟨.hbm, 115, rfl⟩
abbrev main_call3_v0 : Ref sig .tc := ⟨.hbm, 116, rfl⟩
abbrev main_v48 : Ref sig .tc := ⟨.hbm, 117, rfl⟩
abbrev main_cst_6 : Ref sig .tc := ⟨.hbm, 118, rfl⟩
abbrev main_v49 : Ref sig .tc := ⟨.hbm, 119, rfl⟩
abbrev main_cst_7 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_cst_8 : Ref sig .tc := ⟨.hbm, 127, rfl⟩
abbrev main_v56 : Ref sig .tc := ⟨.hbm, 128, rfl⟩
abbrev main_cst_9 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_cst_10 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_call4_c : Ref sig .tc := ⟨.hbm, 149, rfl⟩
abbrev main_call4_v0 : Ref sig .tc := ⟨.hbm, 150, rfl⟩
abbrev main_call4_v1 : Ref sig .tc := ⟨.hbm, 151, rfl⟩
abbrev main_call4_c_0 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_call4_v5 : Ref sig .tc := ⟨.hbm, 156, rfl⟩
abbrev main_call4_c_1 : Ref sig .tc := ⟨.hbm, 157, rfl⟩
abbrev main_call4_c_2 : Ref sig .tc := ⟨.hbm, 158, rfl⟩
abbrev main_call4_v6 : Ref sig .tc := ⟨.hbm, 159, rfl⟩
abbrev main_call4_v7 : Ref sig .tc := ⟨.hbm, 160, rfl⟩
abbrev main_call4_v8 : Ref sig .tc := ⟨.hbm, 161, rfl⟩
abbrev main_call4_v9 : Ref sig .tc := ⟨.hbm, 162, rfl⟩
abbrev main_call4_v10 : Ref sig .tc := ⟨.hbm, 163, rfl⟩
abbrev main_call4_v11 : Ref sig .tc := ⟨.hbm, 164, rfl⟩
abbrev main_call4_c_3 : Ref sig .tc := ⟨.hbm, 165, rfl⟩
abbrev main_call4_v12 : Ref sig .tc := ⟨.hbm, 166, rfl⟩
abbrev main_call4_v13 : Ref sig .tc := ⟨.hbm, 167, rfl⟩
abbrev main_call4_v14 : Ref sig .tc := ⟨.hbm, 168, rfl⟩
abbrev main_call4_cst : Ref sig .tc := ⟨.hbm, 169, rfl⟩
abbrev main_call4_v15 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_cst_11 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_call5_cst : Ref sig .tc := ⟨.hbm, 182, rfl⟩
abbrev main_call5_v0 : Ref sig .tc := ⟨.hbm, 183, rfl⟩
abbrev main_call5_cst_0 : Ref sig .tc := ⟨.hbm, 184, rfl⟩
abbrev main_call5_v1 : Ref sig .tc := ⟨.hbm, 185, rfl⟩
abbrev main_call5_v2 : Ref sig .tc := ⟨.hbm, 186, rfl⟩
abbrev main_call5_v3 : Ref sig .tc := ⟨.hbm, 187, rfl⟩
abbrev main_call5_v4 : Ref sig .tc := ⟨.hbm, 188, rfl⟩
abbrev main_call5_v5 : Ref sig .tc := ⟨.hbm, 189, rfl⟩
abbrev main_call5_v6 : Ref sig .tc := ⟨.hbm, 190, rfl⟩
abbrev main_call5_cst_1 : Ref sig .tc := ⟨.hbm, 191, rfl⟩
abbrev main_call5_v7 : Ref sig .tc := ⟨.hbm, 192, rfl⟩
abbrev main_call5_v8 : Ref sig .tc := ⟨.hbm, 193, rfl⟩
abbrev main_call5_v9 : Ref sig .tc := ⟨.hbm, 194, rfl⟩
abbrev main_call5_v10 : Ref sig .tc := ⟨.hbm, 195, rfl⟩
abbrev main_v85 : Ref sig .tc := ⟨.hbm, 196, rfl⟩

abbrev nD : Nat := 1
abbrev τ : Topo := Topo.v7x

variable {F : FTy → Type} [FloatOps F]

class Facts₀ : Prop where
  bcast_S640000_S640000x1_0 : S640000.BroadcastsInDim S640000x1 (![0] : Fin 1 → Fin S640000x1.rank)
  bcast_S_S640000 : S_.BroadcastsInDim S640000 (![] : Fin 0 → Fin S640000.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S128_d0 : S10000x128.ReducesTo [0] S128
  bcast_S_S128 : S_.BroadcastsInDim S128 (![] : Fin 0 → Fin S128.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x128_S10000x128_1_0_0_1_n_n_wf : DotDims.WF S10000x128 S128x128 S10000x128 [1] [0] [0] [1] [] []
  dot_S10000x128_S128x40_S10000x40_1_0_0_1_n_n_wf : DotDims.WF S10000x128 S128x40 S10000x40 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

class Facts : Prop extends Facts₀ where

variable [Facts]
-- ==== Proof.KernelIdeal.Region0Runs.lean ====
import proofs.«418163_j13657996001620_2_alg».proof.Proof.Gen.KernelIdeal.Launch
import proofs.«418163_j13657996001620_2_alg».proof.Proof.Gen.KernelIdeal.Skeleton
import proofs.«418163_j13657996001620_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1

theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel

theorem liveAt0_4_C : ∀ t : Fin cfg0.N, ¬cond0_0 (grid0.coords t) → cond0_1 (grid0.coords t) → cfg0.idle 4 (grid0.coords t) = false := by decide +kernel

abbrev VO0_4 : View sig .tc .vmem S1280x128 .bf16 := (Memref.whole cc0_stg4_0 : Memref sig .tc .vmem S1280x128 .bf16).view

abbrev ms0_0 (t : Fin cfg0.N) : Memref sig .tc .vmem S1280x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2560x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x128 .bf16 := win0_4.stage (cfg0.slots t 4)
abbrev hs0_4 (t : Fin cfg0.N) : (ms0_4 t).IsWhole := hstage0_4 ((cfg0.slots t 4).cast nbuf0_4)

abbrev scM0_0 : Memref sig .tc .vmem S1280x128 .f32 := Memref.whole cc0_scratch0

abbrev VS0_0 : View sig .tc .vmem S1280x128 .f32 := scM0_0.view

def rest0 (c : Dev nD) : sProp 𝕄 :=
  Pipeline.scopedRestBut (Ix := Unit) (Name := ℕ) (U := UR sig nD τ) (Lvl := ℕ) (Val := Elt F) spec0 c [cc0_scratch0]

theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ rest0 (F := F) c) :=
  Pipeline.scopedRest_split_of_list spec0 c [cc0_scratch0] (by decide) (by decide)

theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_split]; simp only [scM0_0, owns_whole]; try rfl

end Cert.KernelIdeal.Hand

end
-- ==== Proof.KernelIdeal.Region0Run.lean ====
import proofs.«418163_j13657996001620_2_alg».proof.Proof.KernelIdeal.Region0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords)
  (arg2 : Memref sig .tc .vmem S1280x2560 .bf16) (harg2 : arg2.IsWhole) (arg3 : Memref sig .tc .vmem S2560x128 .bf16) (harg3 : arg3.IsWhole)
  (arg4 : Memref sig .tc .vmem S128x128 .bf16) (harg4 : arg4.IsWhole) (arg5 : Memref sig .tc .vmem S1x128 .f32) (harg5 : arg5.IsWhole)
  (arg6 : Memref sig .tc .vmem S1280x128 .bf16) (harg6 : arg6.IsWhole) (arg7 : Memref sig .tc .vmem S1280x128 .f32) (harg7 : arg7.IsWhole)

set_option maxHeartbeats 1000000 in
noncomputable def kernelRun0_A (hc0 : cond0_0 i) (hc1 : ¬cond0_1 i)
    (x0 : Vec F S1280x2560 .bf16) (x1 : Vec F S2560x128 .bf16) (x2 : Vec F S128x128 .bf16) (x3 : Vec F S1x128 .f32) :
    Σ' (L4 : List (View.Piece (Elt F) S1280x128 .bf16)), { LS0 : List (View.Piece (Elt F) S1280x128 .f32) //
      ∀ (xi4 : Vec F S1280x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_layer_kernel i arg2 harg2 arg3 harg3 arg4 harg4 arg5 harg5 arg6 harg6 arg7 harg7) K } := by
  refine ⟨[], ?_, fun xi4 E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
noncomputable def kernelRun0_B (hc0 : ¬cond0_0 i) (hc1 : ¬cond0_1 i)
    (x0 : Vec F S1280x2560 .bf16) (x1 : Vec F S2560x128 .bf16) (x2 : Vec F S128x128 .bf16) (x3 : Vec F S1x128 .f32) (xs0 : Vec F S1280x128 .f32) :
    Σ' (L4 : List (View.Piece (Elt F) S1280x128 .bf16)), { LS0 : List (View.Piece (Elt F) S1280x128 .f32) //
      ∀ (xi4 : Vec F S1280x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_layer_kernel i arg2 harg2 arg3 harg3 arg4 harg4 arg5 harg5 arg6 harg6 arg7 harg7) K } := by
  refine ⟨[], ?_, fun xi4 E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
noncomputable def kernelRun0_C (hc0 : ¬cond0_0 i) (hc1 : cond0_1 i)
    (x0 : Vec F S1280x2560 .bf16) (x1 : Vec F S2560x128 .bf16) (x2 : Vec F S128x128 .bf16) (x3 : Vec F S1x128 .f32) (xs0 : Vec F S1280x128 .f32) :
    Σ' (L4 : List (View.Piece (Elt F) S1280x128 .bf16)), { LS0 : List (View.Piece (Elt F) S1280x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_layer_kernel i arg2 harg2 arg3 harg3 arg4 harg4 arg5 harg5 arg6 harg6 arg7 harg7) K } := by
  refine ⟨?_, ?_, fun E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KernelIdeal.Region0.lean ====
import proofs.«418163_j13657996001620_2_alg».proof.Proof.KernelIdeal.Region0Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Cases

variable (c : Dev nD) (i : grid0.Coords)
  (arg2 : Memref sig .tc .vmem S1280x2560 .bf16) (harg2 : arg2.IsWhole) (arg3 : Memref sig .tc .vmem S2560x128 .bf16) (harg3 : arg3.IsWhole)
  (arg4 : Memref sig .tc .vmem S128x128 .bf16) (harg4 : arg4.IsWhole) (arg5 : Memref sig .tc .vmem S1x128 .f32) (harg5 : arg5.IsWhole)
  (arg6 : Memref sig .tc .vmem S1280x128 .bf16) (harg6 : arg6.IsWhole) (arg7 : Memref sig .tc .vmem S1280x128 .f32) (harg7 : arg7.IsWhole)

section
variable (hc0 : cond0_0 i) (hc1 : ¬cond0_1 i) (x0 : Vec F S1280x2560 .bf16) (x1 : Vec F S2560x128 .bf16) (x2 : Vec F S128x128 .bf16) (x3 : Vec F S1x128 .f32)

def outs0_A : Vec F S1280x128 .bf16 × Vec F S1280x128 .f32 :=
  let r := kernelRun0_A c i arg2 harg2 arg3 harg3 arg4 harg4 arg5 harg5 arg6 harg6 arg7 harg7 hc0 hc1 x0 x1 x2 x3
  (VO0_4.read (Elt F) (VO0_4.writes (Elt F) VO0_4.junk r.1), VS0_0.read (Elt F) (VS0_0.writes (Elt F) VS0_0.junk r.2.1))

theorem scover0_A_0 (y : S1280x128.Idx) : ∃ pc ∈ (kernelRun0_A c i arg2 harg2 arg3 harg3 arg4 harg4 arg5 harg5 arg6 harg6 arg7 harg7 hc0 hc1 x0 x1 x2 x3).2.1, y ∈ pc.1.set :=
  View.cover_of_tiledL _ S1280x128.size (by sl_kernel_rfl) y

end

section
variable (hc0 : ¬cond0_0 i) (hc1 : ¬cond0_1 i) (x0 : Vec F S1280x2560 .bf16) (x1 : Vec F S2560x128 .bf16) (x2 : Vec F S128x128 .bf16) (x3 : Vec F S1x128 .f32) (xs0 : Vec F S1280x128 .f32)

def outs0_B : Vec F S1280x128 .bf16 × Vec F S1280x128 .f32 :=
  let r := kernelRun0_B c i arg2 harg2 arg3 harg3 arg4 harg4 arg5 harg5 arg6 harg6 arg7 harg7 hc0 hc1 x0 x1 x2 x3 xs0
  (VO0_4.read (Elt F) (VO0_4.writes (Elt F) VO0_4.junk r.1), VS0_0.read (Elt F) (VS0_0.writes (Elt F) VS0_0.junk r.2.1))

theorem scover0_B_0 (y : S1280x128.Idx) : ∃ pc ∈ (kernelRun0_B c i arg2 harg2 arg3 harg3 arg4 harg4 arg5 harg5 arg6 harg6 arg7 harg7 hc0 hc1 x0 x1 x2 x3 xs0).2.1, y ∈ pc.1.set :=
  View.cover_of_tiledL _ S1280x128.size (by sl_kernel_rfl) y

end

section
variable (hc0 : ¬cond0_0 i) (hc1 : cond0_1 i) (x0 : Vec F S1280x2560 .bf16) (x1 : Vec F S2560x128 .bf16) (x2 : Vec F S128x128 .bf16) (x3 : Vec F S1x128 .f32) (xs0 : Vec F S1280x128 .f32)

def outs0_C : Vec F S1280x128 .bf16 × Vec F S1280x128 .f32 :=
  let r := kernelRun0_C c i arg2 harg2 arg3 harg3 arg4 harg4 arg5 harg5 arg6 harg6 arg7 harg7 hc0 hc1 x0 x1 x2 x3 xs0
  (VO0_4.read (Elt F) (VO0_4.writes (Elt F) VO0_4.junk r.1), VS0_0.read (Elt F) (VS0_0.writes (Elt F) VS0_0.junk r.2.1))

theorem scover0_C_0 (y : S1280x128.Idx) : ∃ pc ∈ (kernelRun0_C c i arg2 harg2 arg3 harg3 arg4 harg4 arg5 harg5 arg6 harg6 arg7 harg7 hc0 hc1 x0 x1 x2 x3 xs0).2.1, y ∈ pc.1.set :=
  View.cover_of_tiledL _ S1280x128.size (by sl_kernel_rfl) y

theorem cover0_C_4 (y : S1280x128.Idx) : ∃ pc ∈ (kernelRun0_C c i arg2 harg2 arg3 harg3 arg4 harg4 arg5 harg5 arg6 harg6 arg7 harg7 hc0 hc1 x0 x1 x2 x3 xs0).1, y ∈ pc.1.set :=
  View.cover_of_tiledL _ S1280x128.size (by sl_kernel_rfl) y

end

end Cases

variable (V : (c : Dev nD) → (b : Ref sig .tc) → Buf (Elt F) ((c : Thread nD τ).loc b))

section Steps

variable (c : Dev nD) (t : Fin cfg0.N)

def stepA0 (h0 : t.val % 4 = 0) (h1 : ¬t.val % 4 = 3) : Vec F S1280x128 .bf16 × Vec F S1280x128 .f32 :=
  outs0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)

def stepB0 (h0 : ¬t.val % 4 = 0) (h1 : ¬t.val % 4 = 3) (acc : Vec F S1280x128 .f32) : Vec F S1280x128 .bf16 × Vec F S1280x128 .f32 :=
  outs0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) acc

def stepC0 (h0 : ¬t.val % 4 = 0) (h1 : t.val % 4 = 3) (acc : Vec F S1280x128 .f32) : Vec F S1280x128 .bf16 × Vec F S1280x128 .f32 :=
  outs0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) acc

end Steps

def outsAt0 (c : Dev nD) : (n : ℕ) → n < cfg0.N → Vec F S1280x128 .bf16 × Vec F S1280x128 .f32
  | 0, hn => stepA0 V c ⟨0, hn⟩ (Nat.zero_mod _) (by show ¬(0 % 4 = 3); decide)
  | n + 1, hn =>
    if h0 : (n + 1) % 4 = 0 then stepA0 V c ⟨n + 1, hn⟩ h0 (by show ¬((n + 1) % 4 = 3); omega)
    else if h1 : (n + 1) % 4 = 3 then stepC0 V c ⟨n + 1, hn⟩ h0 h1 (outsAt0 c n (Nat.lt_of_succ_lt hn)).2
    else stepB0 V c ⟨n + 1, hn⟩ h0 h1 (outsAt0 c n (Nat.lt_of_succ_lt hn)).2

theorem outsAt0_A (c : Dev nD) (t : Fin cfg0.N) (h0 : t.val % 4 = 0) (h1 : ¬t.val % 4 = 3) :
    outsAt0 V c t.val t.isLt = stepA0 V c t h0 h1 := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 V c t.val t.isLt = stepB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 V c t.val t.isLt = stepC0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 4 = 0
  · by_cases h1 : t.val % 4 = 3
    · exfalso; omega
    · rw [Dat.leavesExact_idle (dat0 V c) 4 t (idleAt0_4 t (fun h => h1 ((hcond0_1 t).mp h))) (noFlush0_4 t (fun h => h1 ((hcond0_1 t).mp h)))]
      rw [outsAt0_A V c t h0 h1]
      unfold stepA0 outs0_A; dsimp only
      rw [PhiS0_castSucc V c t]
      by_cases hz : t.val = 0 <;> [rw [PhiS0_zero V c _ _ hz, PhiA0_eq]; rw [PhiS0_pos V c _ _ hz]]
      all_goals
        iintro ⟨⟨⟨HS0, Hr⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        iframe H0 H1 H2 H3 H4
        isplitl [HS0]; · first | iexact HS0 | (iexists _; iexact HS0)
        iintro ⟨H0, H1, H2, H3, H4, ⟨%es0, HS0⟩⟩
        iframe Hr Hg Ho H0 H1 H2 H3
        isplitl [HS0]
        · unfold owns; iexists _; isplitr
          swap; · iexact HS0
          ipureintro; exact View.read_writes_of_cover _ _ _ _ _ (scover0_A_0 c _ _ _ _ _ _ _ _ _ _ _ _ _ _ _ _ _ _ _)
        iexists _; iexact H4
  · by_cases h1 : t.val % 4 = 3
    · rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold stepC0 outs0_C; dsimp only
      have hz : t.val ≠ 0 := by omega
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      iframe H0 H1 H2 H3 HS0
      isplitl [H4]; · iexists _; iexact H4
      iintro ⟨H0, H1, H2, H3, ⟨%e4, H4⟩, ⟨%es0, HS0⟩⟩
      iframe Hr Hg Ho H0 H1 H2 H3
      isplitl [HS0]
      · unfold owns; iexists _; isplitr
        swap; · iexact HS0
        ipureintro; exact View.read_writes_of_cover _ _ _ _ _ (scover0_C_0 c _ _ _ _ _ _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold stepB0 outs0_B; dsimp only
      have hz : t.val ≠ 0 := by omega
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      iframe H0 H1 H2 H3 H4 HS0
      iintro ⟨H0, H1, H2, H3, H4, ⟨%es0, HS0⟩⟩
      iframe Hr Hg Ho H0 H1 H2 H3
      isplitl [HS0]
      · unfold owns; iexists _; isplitr
        swap; · iexact HS0
        ipureintro; exact View.read_writes_of_cover _ _ _ _ _ (scover0_B_0 c _ _ _ _ _ _ _ _ _ _ _ _ _ _ _ _ _ _ _ _)
      iexists _; iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand

end
-- ==== Proof.KernelIdeal.Run.lean ====
import proofs.«418163_j13657996001620_2_alg».proof.Proof.Gen.KernelIdeal.Regions
import proofs.«418163_j13657996001620_2_alg».proof.Proof.KernelIdeal.Region0
import proofs.«418163_j13657996001620_2_alg».proof.Proof.KernelIdeal.Region1
import proofs.«418163_j13657996001620_2_alg».proof.Proof.KernelIdeal.Region2
import proofs.«418163_j13657996001620_2_alg».proof.Proof.KernelIdeal.RunCond
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ)

abbrev entry0 : (c : Dev nD) → (b : Ref sig .tc) → Buf (Elt F) ((c : Thread nD τ).loc b) := fun c b => V7 m c b

def W8out (c : Dev nD) : Valuation τ sig (Elt F) :=
  Pipeline.withArrays spec0 c (V7 m c) fun w => (dat0 (entry0 m) c).arrAt w cfg0.N

def outsA : Outs (F := F) := fun _ r c => W8out m c r

abbrev entry1 : (c : Dev nD) → (b : Ref sig .tc) → Buf (Elt F) ((c : Thread nD τ).loc b) := fun c b => V11 m (outsA m) c b

def W12out (c : Dev nD) : Valuation τ sig (Elt F) :=
  Pipeline.withArrays spec1 c (V11 m (outsA m) c) fun w => (dat1 (entry1 m) c).arrAt w cfg1.N

def outsB : Outs (F := F) := fun J r c => if J = 8 then W8out m c r else W12out m c r

abbrev entry2 : (c : Dev nD) → (b : Ref sig .tc) → Buf (Elt F) ((c : Thread nD τ).loc b) := fun c b => V15 m (outsB m) c b

def W16out (c : Dev nD) : Valuation τ sig (Elt F) :=
  Pipeline.withArrays spec2 c (V15 m (outsB m) c) fun w => (dat2 (entry2 m) c).arrAt w cfg2.N

def outs : Outs (F := F) := fun J r c => if J = 8 then W8out m c r else if J = 12 then W12out m c r else W16out m c r

theorem V11_outs (c : Dev nD) : V11 m (outs m) c = V11 m (outsA m) c := rfl
theorem V15_outs (c : Dev nD) : V15 m (outs m) c = V15 m (outsB m) c := rfl

theorem entry1_eq : entry1 m = (fun c b => V11 m (outs m) c b : (c : Dev nD) → (b : Ref sig .tc) → Buf (Elt F) ((c : Thread nD τ).loc b)) :=
  funext fun c => funext fun b => (congrFun (V11_outs m c) b).symm
theorem entry2_eq : entry2 m = (fun c b => V15 m (outs m) c b : (c : Dev nD) → (b : Ref sig .tc) → Buf (Elt F) ((c : Thread nD τ).loc b)) :=
  funext fun c => funext fun b => (congrFun (V15_outs m c) b).symm

def pdats : (p : Fin 3) → (c : Dev nD) → Dat τ (Elt F) Unit ℕ (UR sig nD τ) ℕ (cfgs p) c
  | ⟨0, _⟩ => fun c => dat0 (entry0 m) c
  | ⟨1, _⟩ => fun c => dat1 (entry1 m) c
  | ⟨2, _⟩ => fun c => dat2 (entry2 m) c

abbrev runL : GSem nD τ sig → Finset Unit := fun _ => ∅
abbrev runLv : GSem nD τ sig → Unit → ℕ := fun _ _ => 0

abbrev runR (c : Dev nD) : sProp 𝕄 := iprop((∃ r, prngReg c r) ∗ ∃ W, owes (c : Thread nD τ) (0 : CellTallies nD τ sig Unit) W)

theorem outs_8 (c : Dev nD) : outs m 8 main_v22 c = (dat0 (entry0 m) c).arrAt 4 cfg0.N := by
  show Pipeline.withArrays spec0 c (V7 m c) (fun w => (dat0 (entry0 m) c).arrAt w cfg0.N) (Proc.devRef .tc (Pipeline.arrRef spec0 4)) = _
  exact Pipeline.withArrays_arr spec0 launch0.win.arr_inj c _ _ 4

theorem hF0 (c : Dev nD) : ∀ w : Fin cfg0.W, (dat0 (entry0 m) c).arrAt w cfg0.N = V8 m (outs m) c (Pipeline.arrRef spec0 w)
  | 0 | 1 | 2 | 3 => ((dat0 (entry0 m) c).arrAt_in _ rfl _).trans ((A_eq0 (entry0 m) c _).trans ((V8_of m (outs m) c _ (by decide))).symm)
  | 4 => (outs_8 m c).symm.trans (Function.update_self (f := V7 m c) (Proc.devRef .tc main_v22) (outs m 8 main_v22 c)).symm
  | ⟨_ + 5, h⟩ => absurd h (Nat.not_lt.2 (Nat.le_add_left _ _))

theorem hrest0 (c : Dev nD) : ∀ b : Ref sig .tc, b ∉ Finset.univ.image (Pipeline.arrRef spec0) → V8 m (outs m) c b = entry0 m c b :=
  fun b hb => (V8_of m (outs m) c b fun h => hb (by
    rw [List.mem_singleton.mp h]; exact Finset.mem_image.mpr ⟨4, Finset.mem_univ _, rfl⟩))

theorem outs_12 (c : Dev nD) : outs m 12 main_v54 c = (dat1 (entry1 m) c).arrAt 4 cfg1.N := by
  show Pipeline.withArrays spec1 c (V11 m (outsA m) c) (fun w => (dat1 (entry1 m) c).arrAt w cfg1.N) (Proc.devRef .tc (Pipeline.arrRef spec1 4)) = _
  exact Pipeline.withArrays_arr spec1 launch1.win.arr_inj c _ _ 4

theorem hF1 (c : Dev nD) : ∀ w : Fin cfg1.W, (dat1 (entry1 m) c).arrAt w cfg1.N = V12 m (outs m) c (Pipeline.arrRef spec1 w)
  | 0 | 1 | 2 | 3 => ((dat1 (entry1 m) c).arrAt_in _ rfl _).trans ((A_eq1 (entry1 m) c _).trans ((V12_of m (outs m) c _ (by decide)).trans (congrFun (V11_outs m c) _)).symm)
  | 4 => (outs_12 m c).symm.trans (Function.update_self (f := V11 m (outs m) c) (Proc.devRef .tc main_v54) (outs m 12 main_v54 c)).symm
  | ⟨_ + 5, h⟩ => absurd h (Nat.not_lt.2 (Nat.le_add_left _ _))

theorem hrest1 (c : Dev nD) : ∀ b : Ref sig .tc, b ∉ Finset.univ.image (Pipeline.arrRef spec1) → V12 m (outs m) c b = entry1 m c b :=
  fun b hb => (V12_of m (outs m) c b fun h => hb (by
    rw [List.mem_singleton.mp h]; exact Finset.mem_image.mpr ⟨4, Finset.mem_univ _, rfl⟩)).trans (congrFun (V11_outs m c) _)

theorem outs_16 (c : Dev nD) : outs m 16 main_v86 c = (dat2 (entry2 m) c).arrAt 4 cfg2.N := by
  show Pipeline.withArrays spec2 c (V15 m (outsB m) c) (fun w => (dat2 (entry2 m) c).arrAt w cfg2.N) (Proc.devRef .tc (Pipeline.arrRef spec2 4)) = _
  exact Pipeline.withArrays_arr spec2 launch2.win.arr_inj c _ _ 4

theorem hF2 (c : Dev nD) : ∀ w : Fin cfg2.W, (dat2 (entry2 m) c).arrAt w cfg2.N = V16 m (outs m) c (Pipeline.arrRef spec2 w)
  | 0 | 1 | 2 | 3 => ((dat2 (entry2 m) c).arrAt_in _ rfl _).trans ((A_eq2 (entry2 m) c _).trans ((V16_of m (outs m) c _ (by decide)).trans (congrFun (V15_outs m c) _)).symm)
  | 4 => (outs_16 m c).symm.trans (Function.update_self (f := V15 m (outs m) c) (Proc.devRef .tc main_v86) (outs m 16 main_v86 c)).symm
  | ⟨_ + 5, h⟩ => absurd h (Nat.not_lt.2 (Nat.le_add_left _ _))

theorem hrest2 (c : Dev nD) : ∀ b : Ref sig .tc, b ∉ Finset.univ.image (Pipeline.arrRef spec2) → V16 m (outs m) c b = entry2 m c b :=
  fun b hb => (V16_of m (outs m) c b fun h => hb (by
    rw [List.mem_singleton.mp h]; exact Finset.mem_image.mpr ⟨4, Finset.mem_univ _, rfl⟩)).trans (congrFun (V15_outs m c) _)

set_option backward.isDefEq.respectTransparency.types false in
-- The three layers' regions differ only in their proof data and in the contents before and after: one construction serves all.
def regOf (pd : (p : Fin 3) → (c : Dev nD) → Dat τ (Elt F) Unit ℕ (UR sig nD τ) ℕ (cfgs p) c) (p : Fin 3)
    (L : Pipeline.LaunchFacts (nD := nD) (τ := τ) cfgs p) (Vi Vo : Dev nD → Valuation τ sig (Elt F))
    (hbody : ∀ c, Pipeline.BodyObligationLoose (pd p c) defs₀ Variants.none () Set.univ)
    (howed : ∀ c t, (pd p c).owed t = 0) (hrec : ∀ c, (pd p c).recorded 0 = Set.univ) (hshare : ∀ c w, (pd p c).share w = fullShare)
    (hA : ∀ c w, (pd p c).A w = Vi c (Pipeline.arrRef (cfgs p).spec w))
    (hΦi : ∀ c, Pipeline.ΦA (cfgs p).spec c ⊢ (pd p c).Φ 0)
    (hΦo : ∀ c, (pd p c).Φ (Fin.last _) ⊢ Pipeline.ΦA (cfgs p).spec c)
    (hF : ∀ c w, (pd p c).arrAt w (cfgs p).N = Vo c (Pipeline.arrRef (cfgs p).spec w))
    (hrest : ∀ c, ∀ b : Ref sig .tc, b ∉ Finset.univ.image (Pipeline.arrRef (cfgs p).spec) → Vo c b = Vi c b) :
    RegionSeg (pcfgs (F := F)) adm pd () defs₀ Variants.none runL runLv p where
  win := L.win.to₀
  block_pos := L.block_pos
  stage_whole := L.stage_whole
  K := PEmpty
  osem k := k.elim
  ho := Pipeline.OwnSemFacts.none _
  hbody := hbody
  hwaits := Pipeline.hwaits_of_owed_zero _ _ _ _ runL runLv p howed
  pre c := iprop(StableHlo.held (c : Thread nD τ) (Pipeline.ucRefs τ sig) (Vi c) ∗ runR c)
  post c := iprop(StableHlo.held (c : Thread nD τ) (Pipeline.ucRefs τ sig) (Vo c) ∗ runR c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    have hsplit := Pipeline.arrays_of_unscopedBufs (p := p) (pcfgs (F := F)) adm pd L.win L.arr_whole c (hshare c) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    have h := hΦi c
    unfold Pipeline.ΦA at h
    iintro ⟨Hp, -, Hr⟩
    iapply h
    isplitl [Hr]; · iexact Hr
    iexact Hp
  hout c := by
    rw [Pipeline.ownSems0_none]
    have h := hΦo c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c pd (hshare c) (fun b => Vi c b) (fun b => Vo c b) ((pd p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 := regOf (pdats m) 0 launch0 (V7 m) (V8 m (outs m)) (fun c => (body_obligation0 (entry0 m) c).loose) (fun _ _ => rfl) (fun _ => rfl)
  (fun c => (pdats m 0 c).share_full fun _ => rfl) (fun _ _ => rfl) (hin0 (entry0 m)) (hout0 (entry0 m)) (hF0 m) (hrest0 m)

def reg1 := regOf (pdats m) 1 launch1 (V11 m (outs m)) (V12 m (outs m)) (fun c => (body_obligation1 (entry1 m) c).loose) (fun _ _ => rfl) (fun _ => rfl)
  (fun c => (pdats m 1 c).share_full fun _ => rfl) (fun _ _ => rfl) (hin1 (entry1 m)) (hout1 (entry1 m)) (hF1 m) (hrest1 m)

def reg2 := regOf (pdats m) 2 launch2 (V15 m (outs m)) (V16 m (outs m)) (fun c => (body_obligation2 (entry2 m) c).loose) (fun _ _ => rfl) (fun _ => rfl)
  (fun c => (pdats m 2 c).share_full fun _ => rfl) (fun _ _ => rfl) (hin2 (entry2 m)) (hout2 (entry2 m)) (hF2 m) (hrest2 m)

set_option backward.isDefEq.respectTransparency.types false in
theorem run_value (ρ : Dev nD → PrngReg) :
    θ_run defs (onTc (τ := τ) (main (F := F))) ⟨m, fun _ => 0, ρ⟩ (fun r => ∀ c : Dev nD,
      r.2.mem ((c.tc : Thread nD τ).loc main_v88) = V18 m (outs m) c main_v88
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  run_value_cond m (Ix := Unit) (U := UR sig nD τ) (Lvl := ℕ) emb₁ () Variants.none runL runLv (fun _ _ => rfl) ρ (outs m) (pdats m)
    0 (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => runR c)
    (by
      refine Pipeline.initEach runL runLv fun c => ?_
      iintro ⟨⟨-, HO, -, Hp, -⟩, -⟩
      imodintro
      isplitl [Hp]; · iexists _; iexact Hp
      iexists ∅; iexact HO)
    (fun c => by
      iintro ⟨-, HO⟩
      iexact HO)
    (reg0 m) (fun _ => .rfl) (fun _ => .rfl)
    (reg1 m) (fun _ => .rfl) (fun _ => .rfl)
    (reg2 m) (fun _ => .rfl) (fun _ => .rfl)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => (h c).2) (run_value m ρ)

end Cert.KernelIdeal.Hand

end
-- ==== Proof.RefOps.lean ====
/- TABLES ONLY. The reference's @main as the list of its 183 tensor operations in order — the helper functions it calls laid out at
   their call sites, each over the buffers of its own call —, cut into nine consecutive stretches: three graph-convolution layers, each
   an aggregation (gather the source rows, scale by the edge weight, sum into the destination rows) followed by a linear map with
   bias; after the first two the positive part and a normalisation over the rows; at the end the logarithm of the softmax over
   the 40 columns. With each stretch, the list of the buffers it writes. Nothing is proved here. -/
import proofs.«418163_j13657996001620_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 1, aggregation. The edge weights as a column; the feature rows gathered at the column indices (an index below zero moved up by the row count; a row outside the table replaced by the not-a-number filler); each gathered row scaled by its edge weight; the scaled rows summed into a zero table at the row indices. Ends at `main_v6`. (30 operations.) -/
abbrev opsAgg1 : List (HloOp τ sig (Elt F)) :=
  [ unary main_arg3 main_v0 (broadcastInDim S640000x1 ![0] bcast_S640000_S640000x1_0 : (⟨S640000, .f32⟩ : BufTy).Contents (Elt F) → (⟨S640000x1, .f32⟩ : BufTy).Contents (Elt F)),
    nullary main_call0_c (constantI S_ 32 0#32),
    unary main_call0_c main_call0_v0 (broadcastInDim S640000 ![] bcast_S_S640000 : (⟨S_, .i32⟩ : BufTy).Contents (Elt F) → (⟨S640000, .i32⟩ : BufTy).Contents (Elt F)),
    binary main_arg2 main_call0_v0 main_call0_v1 (cmpi .slt : (⟨S640000, .i32⟩ : BufTy).Contents (Elt F) → (⟨S640000, .i32⟩ : BufTy).Contents (Elt F) → (⟨S640000, .i1⟩ : BufTy).Contents (Elt F)),
    nullary main_call0_c_0 (constantI S_ 32 10000#32),
    unary main_call0_c_0 main_call0_v2 (broadcastInDim S640000 ![] bcast_S_S640000 : (⟨S_, .i32⟩ : BufTy).Contents (Elt F) → (⟨S640000, .i32⟩ : BufTy).Contents (Elt F)),
    binary main_arg2 main_call0_v2 main_call0_v3 (addi : (⟨S640000, .i32⟩ : BufTy).Contents (Elt F) → (⟨S640000, .i32⟩ : BufTy).Contents (Elt F) → (⟨S640000, .i32⟩ : BufTy).Contents (Elt F)),
    ternary main_call0_v1 main_call0_v3 main_arg2 main_call0_v4 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_call0_v4 main_call0_v5 (broadcastInDim S640000x1 ![0] bcast_S640000_S640000x1_0 : (⟨S640000, .i32⟩ : BufTy).Contents (Elt F) → (⟨S640000x1, .i32⟩ : BufTy).Contents (Elt F)),
    nullary main_call0_c_1 (constantI S1 32 9999#32),
    nullary main_call0_c_2 (constantI S_ 32 0#32),
    unary main_call0_c_2 main_call0_v6 (broadcastInDim S640000x1 ![] bcast_S_S640000x1 : (⟨S_, .i32⟩ : BufTy).Contents (Elt F) → (⟨S640000x1, .i32⟩ : BufTy).Contents (Elt F)),
    binary main_call0_v5 main_call0_v6 main_call0_v7 (cmpi .sge : (⟨S640000x1, .i32⟩ : BufTy).Contents (Elt F) → (⟨S640000x1, .i32⟩ : BufTy).Contents (Elt F) → (⟨S640000x1, .i1⟩ : BufTy).Contents (Elt F)),
    unary main_call0_c_1 main_call0_v8 (broadcastInDim S1x1 ![1] bcast_S1_S1x1_1 : (⟨S1, .i32⟩ : BufTy).Contents (Elt F) → (⟨S1x1, .i32⟩ : BufTy).Contents (Elt F)),
    unary main_call0_v8 main_call0_v9 (broadcastInDim S640000x1 ![0, 1] bcast_S1x1_S640000x1_0_1 : (⟨S1x1, .i32⟩ : BufTy).Contents (Elt F) → (⟨S640000x1, .i32⟩ : BufTy).Contents (Elt F)),
    binary main_call0_v5 main_call0_v9 main_call0_v10 (cmpi .sle : (⟨S640000x1, .i32⟩ : BufTy).Contents (Elt F) → (⟨S640000x1, .i32⟩ : BufTy).Contents (Elt F) → (⟨S640000x1, .i1⟩ : BufTy).Contents (Elt F)),
    binary main_call0_v7 main_call0_v10 main_call0_v11 (andi : (⟨S640000x1, .i1⟩ : BufTy).Contents (Elt F) → (⟨S640000x1, .i1⟩ : BufTy).Contents (Elt F) → (⟨S640000x1, .i1⟩ : BufTy).Contents (Elt F)),
    nullary main_call0_c_3 (constantI S_ 1 1#1),
    binary main_call0_v11 main_call0_c_3 main_call0_v12 ((fun x v => Host.reduce IntOp.andi x v reducesTo_S640000x1_S640000_d1 h_S_) : (⟨S640000x1, .i1⟩ : BufTy).Contents (Elt F) → (⟨S_, .i1⟩ : BufTy).Contents (Elt F) → (⟨S640000, .i1⟩ : BufTy).Contents (Elt F)),
    binary main_arg0 main_call0_v5 main_call0_v13 ((fun x i => Host.gather gather_S10000x128_S640000x1_S640000x128_1_0_n_n_0_1_1128 x i) : (⟨S10000x128, .f32⟩ : BufTy).Contents (Elt F) → (⟨S640000x1, .i32⟩ : BufTy).Contents (Elt F) → (⟨S640000x128, .f32⟩ : BufTy).Contents (Elt F)),
    unary main_call0_v12 main_call0_v14 (broadcastInDim S640000x128 ![0] bcast_S640000_S640000x128_0 : (⟨S640000, .i1⟩ : BufTy).Contents (Elt F) → (⟨S640000x128, .i1⟩ : BufTy).Contents (Elt F)),
    nullary main_call0_cst (constant S_ .f32 0x7FC00000#32),
    unary main_call0_cst main_call0_v15 (broadcastInDim S640000x128 ![] bcast_S_S640000x128 : (⟨S_, .f32⟩ : BufTy).Contents (Elt F) → (⟨S640000x128, .f32⟩ : BufTy).Contents (Elt F)),
    ternary main_call0_v14 main_call0_v13 main_call0_v15 main_v1 (select : (⟨S640000x128, .i1⟩ : BufTy).Contents (Elt F) → (⟨S640000x128, .f32⟩ : BufTy).Contents (Elt F) → (⟨S640000x128, .f32⟩ : BufTy).Contents (Elt F) → (⟨S640000x128, .f32⟩ : BufTy).Contents (Elt F)),
    unary main_v0 main_v2 (broadcastInDim S640000x128 ![0, 1] bcast_S640000x1_S640000x128_0_1 : (⟨S640000x1, .f32⟩ : BufTy).Contents (Elt F) → (⟨S640000x128, .f32⟩ : BufTy).Contents (Elt F)),
    binary main_v2 main_v1 main_v3 (mulf : (⟨S640000x128, .f32⟩ : BufTy).Contents (Elt F) → (⟨S640000x128, .f32⟩ : BufTy).Contents (Elt F) → (⟨S640000x128, .f32⟩ : BufTy).Contents (Elt F)),
    nullary main_cst (constant S_ .f32 0x00000000#32),
    unary main_cst main_v4 (broadcastInDim S10000x128 ![] bcast_S_S10000x128 : (⟨S_, .f32⟩ : BufTy).Contents (Elt F) → (⟨S10000x128, .f32⟩ : BufTy).Contents (Elt F)),
    unary main_arg1 main_v5 (broadcastInDim S640000x1 ![0] bcast_S640000_S640000x1_0 : (⟨S640000, .i32⟩ : BufTy).Contents (Elt F) → (⟨S640000x1, .i32⟩ : BufTy).Contents (Elt F)),
    ternary main_v4 main_v5 main_v3 main_v6 ((fun x i u => Host.scatterAdd scatter_S10000x128_S640000x1_S640000x128_1_0_0_1 x i u) : (⟨S10000x128, .f32⟩ : BufTy).Contents (Elt F) → (⟨S640000x1, .i32⟩ : BufTy).Contents (Elt F) → (⟨S640000x128, .f32⟩ : BufTy).Contents (Elt F) → (⟨S10000x128, .f32⟩ : BufTy).Contents (Elt F)) ]

/-- The buffers the operations of `opsAgg1` write, in order. -/
abbrev wAgg1 : List (Ref sig .tc) :=
  [main_v0, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v1, main_v2, main_v3, main_cst, main_v4, main_v5, main_v6]

/-- Layer 1, linear map: the aggregated table times the first weight matrix, plus the bias along the rows, then the positive part. Ends at `main_v11`. (7 operations.) -/
abbrev opsLin1 : List (HloOp τ sig (Elt F)) :=
  [ binary main_v6 main_arg4 main_v7 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg5 main_v8 (broadcastInDim S1x128 ![1] bcast_S128_S1x128_1 : (⟨S128, .f32⟩ : BufTy).Contents (Elt F) → (⟨S1x128, .f32⟩ : BufTy).Contents (Elt F)),
    unary main_v8 main_v9 (broadcastInDim S10000x128 ![0, 1] bcast_S1x128_S10000x128_0_1 : (⟨S1x128, .f32⟩ : BufTy).Contents (Elt F) → (⟨S10000x128, .f32⟩ : BufTy).Contents (Elt F)),
    binary main_v7 main_v9 main_v10 (addf : (⟨S10000x128, .f32⟩ : BufTy).Contents (Elt F) → (⟨S10000x128, .f32⟩ : BufTy).Contents (Elt F) → (⟨S10000x128, .f32⟩ : BufTy).Contents (Elt F)),
    nullary main_call1_cst (constant S_ .f32 0x00000000#32),
    unary main_call1_cst main_call1_v0 (broadcastInDim S10000x128 ![] bcast_S_S10000x128 : (⟨S_, .f32⟩ : BufTy).Contents (Elt F) → (⟨S10000x128, .f32⟩ : BufTy).Contents (Elt F)),
    binary main_v10 main_call1_v0 main_v11 (maximumf : (⟨S10000x128, .f32⟩ : BufTy).Contents (Elt F) → (⟨S10000x128, .f32⟩ : BufTy).Contents (Elt F) → (⟨S10000x128, .f32⟩ : BufTy).Contents (Elt F)) ]

/-- The buffers the operations of `opsLin1` write, in order. -/
abbrev wLin1 : List (Ref sig .tc) :=
  [main_v7, main_v8, main_v9, main_v10, main_call1_cst, main_call1_v0, main_v11]

/-- Layer 1, normalisation over the rows: the column means, the column means of the squared deviations, then scale * (x - mean) * rsqrt (var + eps) + shift. Ends at `main_v36`. (30 operations.) -/
abbrev opsBN1 : List (HloOp τ sig (Elt F)) :=
  [ nullary main_cst_0 (constant S_ .f32 0x00000000#32),
    binary main_v11 main_cst_0 main_v12 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    nullary main_cst_1 (constant S_ .f32 0x461C4000#32),
    unary main_cst_1 main_v13 (broadcastInDim S128 ![] bcast_S_S128 : (⟨S_, .f32⟩ : BufTy).Contents (Elt F) → (⟨S128, .f32⟩ : BufTy).Contents (Elt F)),
    binary main_v12 main_v13 main_v14 (Host.divf : (⟨S128, .f32⟩ : BufTy).Contents (Elt F) → (⟨S128, .f32⟩ : BufTy).Contents (Elt F) → (⟨S128, .f32⟩ : BufTy).Contents (Elt F)),
    unary main_v14 main_v15 (broadcastInDim S1x128 ![1] bcast_S128_S1x128_1 : (⟨S128, .f32⟩ : BufTy).Contents (Elt F) → (⟨S1x128, .f32⟩ : BufTy).Contents (Elt F)),
    unary main_v15 main_v16 (broadcastInDim S10000x128 ![0, 1] bcast_S1x128_S10000x128_0_1 : (⟨S1x128, .f32⟩ : BufTy).Contents (Elt F) → (⟨S10000x128, .f32⟩ : BufTy).Contents (Elt F)),
    binary main_v11 main_v16 main_v17 (subf : (⟨S10000x128, .f32⟩ : BufTy).Contents (Elt F) → (⟨S10000x128, .f32⟩ : BufTy).Contents (Elt F) → (⟨S10000x128, .f32⟩ : BufTy).Contents (Elt F)),
    binary main_v17 main_v17 main_v18 (mulf : (⟨S10000x128, .f32⟩ : BufTy).Contents (Elt F) → (⟨S10000x128, .f32⟩ : BufTy).Contents (Elt F) → (⟨S10000x128, .f32⟩ : BufTy).Contents (Elt F)),
    nullary main_cst_2 (constant S_ .f32 0x00000000#32),
    binary main_v18 main_cst_2 main_v19 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    nullary main_cst_3 (constant S_ .f32 0x461C4000#32),
    unary main_cst_3 main_v20 (broadcastInDim S128 ![] bcast_S_S128 : (⟨S_, .f32⟩ : BufTy).Contents (Elt F) → (⟨S128, .f32⟩ : BufTy).Contents (Elt F)),
    binary main_v19 main_v20 main_v21 (Host.divf : (⟨S128, .f32⟩ : BufTy).Contents (Elt F) → (⟨S128, .f32⟩ : BufTy).Contents (Elt F) → (⟨S128, .f32⟩ : BufTy).Contents (Elt F)),
    unary main_v14 main_v22 (broadcastInDim S1x128 ![1] bcast_S128_S1x128_1 : (⟨S128, .f32⟩ : BufTy).Contents (Elt F) → (⟨S1x128, .f32⟩ : BufTy).Contents (Elt F)),
    unary main_v22 main_v23 (broadcastInDim S10000x128 ![0, 1] bcast_S1x128_S10000x128_0_1 : (⟨S1x128, .f32⟩ : BufTy).Contents (Elt F) → (⟨S10000x128, .f32⟩ : BufTy).Contents (Elt F)),
    binary main_v11 main_v23 main_v24 (subf : (⟨S10000x128, .f32⟩ : BufTy).Contents (Elt F) → (⟨S10000x128, .f32⟩ : BufTy).Contents (Elt F) → (⟨S10000x128, .f32⟩ : BufTy).Contents (Elt F)),
    unary main_arg6 main_v25 (broadcastInDim S1x128 ![1] bcast_S128_S1x128_1 : (⟨S128, .f32⟩ : BufTy).Contents (Elt F) → (⟨S1x128, .f32⟩ : BufTy).Contents (Elt F)),
    unary main_v25 main_v26 (broadcastInDim S10000x128 ![0, 1] bcast_S1x128_S10000x128_0_1 : (⟨S1x128, .f32⟩ : BufTy).Contents (Elt F) → (⟨S10000x128, .f32⟩ : BufTy).Contents (Elt F)),
    binary main_v26 main_v24 main_v27 (mulf : (⟨S10000x128, .f32⟩ : BufTy).Contents (Elt F) → (⟨S10000x128, .f32⟩ : BufTy).Contents (Elt F) → (⟨S10000x128, .f32⟩ : BufTy).Contents (Elt F)),
    nullary main_cst_4 (constant S_ .f32 0x3727C5AC#32),
    unary main_cst_4 main_v28 (broadcastInDim S128 ![] bcast_S_S128 : (⟨S_, .f32⟩ : BufTy).Contents (Elt F) → (⟨S128, .f32⟩ : BufTy).Contents (Elt F)),
    binary main_v21 main_v28 main_v29 (addf : (⟨S128, .f32⟩ : BufTy).Contents (Elt F) → (⟨S128, .f32⟩ : BufTy).Contents (Elt F) → (⟨S128, .f32⟩ : BufTy).Contents (Elt F)),
    unary main_v29 main_v30 (Host.rsqrt : (⟨S128, .f32⟩ : BufTy).Contents (Elt F) → (⟨S128, .f32⟩ : BufTy).Contents (Elt F)),
    unary main_v30 main_v31 (broadcastInDim S1x128 ![1] bcast_S128_S1x128_1 : (⟨S128, .f32⟩ : BufTy).Contents (Elt F) → (⟨S1x128, .f32⟩ : BufTy).Contents (Elt F)),
    unary main_v31 main_v32 (broadcastInDim S10000x128 ![0, 1] bcast_S1x128_S10000x128_0_1 : (⟨S1x128, .f32⟩ : BufTy).Contents (Elt F) → (⟨S10000x128, .f32⟩ : BufTy).Contents (Elt F)),
    binary main_v27 main_v32 main_v33 (mulf : (⟨S10000x128, .f32⟩ : BufTy).Contents (Elt F) → (⟨S10000x128, .f32⟩ : BufTy).Contents (Elt F) → (⟨S10000x128, .f32⟩ : BufTy).Contents (Elt F)),
    unary main_arg7 main_v34 (broadcastInDim S1x128 ![1] bcast_S128_S1x128_1 : (⟨S128, .f32⟩ : BufTy).Contents (Elt F) → (⟨S1x128, .f32⟩ : BufTy).Contents (Elt F)),
    unary main_v34 main_v35 (broadcastInDim S10000x128 ![0, 1] bcast_S1x128_S10000x128_0_1 : (⟨S1x128, .f32⟩ : BufTy).Contents (Elt F) → (⟨S10000x128, .f32⟩ : BufTy).Contents (Elt F)),
    binary main_v33 main_v35 main_v36 (addf : (⟨S10000x128, .f32⟩ : BufTy).Contents (Elt F) → (⟨S10000x128, .f32⟩ : BufTy).Contents (Elt F) → (⟨S10000x128, .f32⟩ : BufTy).Contents (Elt F)) ]

/-- The buffers the operations of `opsBN1` write, in order. -/
abbrev wBN1 : List (Ref sig .tc) :=
  [main_cst_0, main_v12, main_cst_1, main_v13, main_v14, main_v15, main_v16, main_v17, main_v18, main_cst_2, main_v19, main_cst_3, main_v20, main_v21, main_v22, main_v23, main_v24, main_v25, main_v26, main_v27, main_cst_4, main_v28, main_v29, main_v30, main_v31, main_v32, main_v33, main_v34, main_v35, main_v36]

/-- Layer 2, aggregation of the normalised table: gather at the column indices, scale by the edge weights, sum at the row indices. Ends at `main_v43`. (30 operations.) -/
abbrev opsAgg2 : List (HloOp τ sig (Elt F)) :=
  [ unary main_arg3 main_v37 (broadcastInDim S640000x1 ![0] bcast_S640000_S640000x1_0 : (⟨S640000, .f32⟩ : BufTy).Contents (Elt F) → (⟨S640000x1, .f32⟩ : BufTy).Contents (Elt F)),
    nullary main_call2_c (constantI S_ 32 0#32),
    unary main_call2_c main_call2_v0 (broadcastInDim S640000 ![] bcast_S_S640000 : (⟨S_, .i32⟩ : BufTy).Contents (Elt F) → (⟨S640000, .i32⟩ : BufTy).Contents (Elt F)),
    binary main_arg2 main_call2_v0 main_call2_v1 (cmpi .slt : (⟨S640000, .i32⟩ : BufTy).Contents (Elt F) → (⟨S640000, .i32⟩ : BufTy).Contents (Elt F) → (⟨S640000, .i1⟩ : BufTy).Contents (Elt F)),
    nullary main_call2_c_0 (constantI S_ 32 10000#32),
    unary main_call2_c_0 main_call2_v2 (broadcastInDim S640000 ![] bcast_S_S640000 : (⟨S_, .i32⟩ : BufTy).Contents (Elt F) → (⟨S640000, .i32⟩ : BufTy).Contents (Elt F)),
    binary main_arg2 main_call2_v2 main_call2_v3 (addi : (⟨S640000, .i32⟩ : BufTy).Contents (Elt F) → (⟨S640000, .i32⟩ : BufTy).Contents (Elt F) → (⟨S640000, .i32⟩ : BufTy).Contents (Elt F)),
    ternary main_call2_v1 main_call2_v3 main_arg2 main_call2_v4 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_call2_v4 main_call2_v5 (broadcastInDim S640000x1 ![0] bcast_S640000_S640000x1_0 : (⟨S640000, .i32⟩ : BufTy).Contents (Elt F) → (⟨S640000x1, .i32⟩ : BufTy).Contents (Elt F)),
    nullary main_call2_c_1 (constantI S1 32 9999#32),
    nullary main_call2_c_2 (constantI S_ 32 0#32),
    unary main_call2_c_2 main_call2_v6 (broadcastInDim S640000x1 ![] bcast_S_S640000x1 : (⟨S_, .i32⟩ : BufTy).Contents (Elt F) → (⟨S640000x1, .i32⟩ : BufTy).Contents (Elt F)),
    binary main_call2_v5 main_call2_v6 main_call2_v7 (cmpi .sge : (⟨S640000x1, .i32⟩ : BufTy).Contents (Elt F) → (⟨S640000x1, .i32⟩ : BufTy).Contents (Elt F) → (⟨S640000x1, .i1⟩ : BufTy).Contents (Elt F)),
    unary main_call2_c_1 main_call2_v8 (broadcastInDim S1x1 ![1] bcast_S1_S1x1_1 : (⟨S1, .i32⟩ : BufTy).Contents (Elt F) → (⟨S1x1, .i32⟩ : BufTy).Contents (Elt F)),
    unary main_call2_v8 main_call2_v9 (broadcastInDim S640000x1 ![0, 1] bcast_S1x1_S640000x1_0_1 : (⟨S1x1, .i32⟩ : BufTy).Contents (Elt F) → (⟨S640000x1, .i32⟩ : BufTy).Contents (Elt F)),
    binary main_call2_v5 main_call2_v9 main_call2_v10 (cmpi .sle : (⟨S640000x1, .i32⟩ : BufTy).Contents (Elt F) → (⟨S640000x1, .i32⟩ : BufTy).Contents (Elt F) → (⟨S640000x1, .i1⟩ : BufTy).Contents (Elt F)),
    binary main_call2_v7 main_call2_v10 main_call2_v11 (andi : (⟨S640000x1, .i1⟩ : BufTy).Contents (Elt F) → (⟨S640000x1, .i1⟩ : BufTy).Contents (Elt F) → (⟨S640000x1, .i1⟩ : BufTy).Contents (Elt F)),
    nullary main_call2_c_3 (constantI S_ 1 1#1),
    binary main_call2_v11 main_call2_c_3 main_call2_v12 ((fun x v => Host.reduce IntOp.andi x v reducesTo_S640000x1_S640000_d1 h_S_) : (⟨S640000x1, .i1⟩ : BufTy).Contents (Elt F) → (⟨S_, .i1⟩ : BufTy).Contents (Elt F) → (⟨S640000, .i1⟩ : BufTy).Contents (Elt F)),
    binary main_v36 main_call2_v5 main_call2_v13 ((fun x i => Host.gather gather_S10000x128_S640000x1_S640000x128_1_0_n_n_0_1_1128 x i) : (⟨S10000x128, .f32⟩ : BufTy).Contents (Elt F) → (⟨S640000x1, .i32⟩ : BufTy).Contents (Elt F) → (⟨S640000x128, .f32⟩ : BufTy).Contents (Elt F)),
    unary main_call2_v12 main_call2_v14 (broadcastInDim S640000x128 ![0] bcast_S640000_S640000x128_0 : (⟨S640000, .i1⟩ : BufTy).Contents (Elt F) → (⟨S640000x128, .i1⟩ : BufTy).Contents (Elt F)),
    nullary main_call2_cst (constant S_ .f32 0x7FC00000#32),
    unary main_call2_cst main_call2_v15 (broadcastInDim S640000x128 ![] bcast_S_S640000x128 : (⟨S_, .f32⟩ : BufTy).Contents (Elt F) → (⟨S640000x128, .f32⟩ : BufTy).Contents (Elt F)),
    ternary main_call2_v14 main_call2_v13 main_call2_v15 main_v38 (select : (⟨S640000x128, .i1⟩ : BufTy).Contents (Elt F) → (⟨S640000x128, .f32⟩ : BufTy).Contents (Elt F) → (⟨S640000x128, .f32⟩ : BufTy).Contents (Elt F) → (⟨S640000x128, .f32⟩ : BufTy).Contents (Elt F)),
    unary main_v37 main_v39 (broadcastInDim S640000x128 ![0, 1] bcast_S640000x1_S640000x128_0_1 : (⟨S640000x1, .f32⟩ : BufTy).Contents (Elt F) → (⟨S640000x128, .f32⟩ : BufTy).Contents (Elt F)),
    binary main_v39 main_v38 main_v40 (mulf : (⟨S640000x128, .f32⟩ : BufTy).Contents (Elt F) → (⟨S640000x128, .f32⟩ : BufTy).Contents (Elt F) → (⟨S640000x128, .f32⟩ : BufTy).Contents (Elt F)),
    nullary main_cst_5 (constant S_ .f32 0x00000000#32),
    unary main_cst_5 main_v41 (broadcastInDim S10000x128 ![] bcast_S_S10000x128 : (⟨S_, .f32⟩ : BufTy).Contents (Elt F) → (⟨S10000x128, .f32⟩ : BufTy).Contents (Elt F)),
    unary main_arg1 main_v42 (broadcastInDim S640000x1 ![0] bcast_S640000_S640000x1_0 : (⟨S640000, .i32⟩ : BufTy).Contents (Elt F) → (⟨S640000x1, .i32⟩ : BufTy).Contents (Elt F)),
    ternary main_v41 main_v42 main_v40 main_v43 ((fun x i u => Host.scatterAdd scatter_S10000x128_S640000x1_S640000x128_1_0_0_1 x i u) : (⟨S10000x128, .f32⟩ : BufTy).Contents (Elt F) → (⟨S640000x1, .i32⟩ : BufTy).Contents (Elt F) → (⟨S640000x128, .f32⟩ : BufTy).Contents (Elt F) → (⟨S10000x128, .f32⟩ : BufTy).Contents (Elt F)) ]

/-- The buffers the operations of `opsAgg2` write, in order. -/
abbrev wAgg2 : List (Ref sig .tc) :=
  [main_v37, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v38, main_v39, main_v40, main_cst_5, main_v41, main_v42, main_v43]

/-- Layer 2, linear map: times the second weight matrix, plus the bias, then the positive part. Ends at `main_v48`. (7 operations.) -/
abbrev opsLin2 : List (HloOp τ sig (Elt F)) :=
  [ binary main_v43 main_arg8 main_v44 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg9 main_v45 (broadcastInDim S1x128 ![1] bcast_S128_S1x128_1 : (⟨S128, .f32⟩ : BufTy).Contents (Elt F) → (⟨S1x128, .f32⟩ : BufTy).Contents (Elt F)),
    unary main_v45 main_v46 (broadcastInDim S10000x128 ![0, 1] bcast_S1x128_S10000x128_0_1 : (⟨S1x128, .f32⟩ : BufTy).Contents (Elt F) → (⟨S10000x128, .f32⟩ : BufTy).Contents (Elt F)),
    binary main_v44 main_v46 main_v47 (addf : (⟨S10000x128, .f32⟩ : BufTy).Contents (Elt F) → (⟨S10000x128, .f32⟩ : BufTy).Contents (Elt F) → (⟨S10000x128, .f32⟩ : BufTy).Contents (Elt F)),
    nullary main_call3_cst (constant S_ .f32 0x00000000#32),
    unary main_call3_cst main_call3_v0 (broadcastInDim S10000x128 ![] bcast_S_S10000x128 : (⟨S_, .f32⟩ : BufTy).Contents (Elt F) → (⟨S10000x128, .f32⟩ : BufTy).Contents (Elt F)),
    binary main_v47 main_call3_v0 main_v48 (maximumf : (⟨S10000x128, .f32⟩ : BufTy).Contents (Elt F) → (⟨S10000x128, .f32⟩ : BufTy).Contents (Elt F) → (⟨S10000x128, .f32⟩ : BufTy).Contents (Elt F)) ]

/-- The buffers the operations of `opsLin2` write, in order. -/
abbrev wLin2 : List (Ref sig .tc) :=
  [main_v44, main_v45, main_v46, main_v47, main_call3_cst, main_call3_v0, main_v48]

/-- Layer 2, normalisation over the rows, as in layer 1. Ends at `main_v73`. (30 operations.) -/
abbrev opsBN2 : List (HloOp τ sig (Elt F)) :=
  [ nullary main_cst_6 (constant S_ .f32 0x00000000#32),
    binary main_v48 main_cst_6 main_v49 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    nullary main_cst_7 (constant S_ .f32 0x461C4000#32),
    unary main_cst_7 main_v50 (broadcastInDim S128 ![] bcast_S_S128 : (⟨S_, .f32⟩ : BufTy).Contents (Elt F) → (⟨S128, .f32⟩ : BufTy).Contents (Elt F)),
    binary main_v49 main_v50 main_v51 (Host.divf : (⟨S128, .f32⟩ : BufTy).Contents (Elt F) → (⟨S128, .f32⟩ : BufTy).Contents (Elt F) → (⟨S128, .f32⟩ : BufTy).Contents (Elt F)),
    unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S10000x128 ![0, 1] bcast_S1x128_S10000x128_0_1 : (⟨S1x128, .f32⟩ : BufTy).Contents (Elt F) → (⟨S10000x128, .f32⟩ : BufTy).Contents (Elt F)),
    binary main_v48 main_v53 main_v54 (subf : (⟨S10000x128, .f32⟩ : BufTy).Contents (Elt F) → (⟨S10000x128, .f32⟩ : BufTy).Contents (Elt F) → (⟨S10000x128, .f32⟩ : BufTy).Contents (Elt F)),
    binary main_v54 main_v54 main_v55 (mulf : (⟨S10000x128, .f32⟩ : BufTy).Contents (Elt F) → (⟨S10000x128, .f32⟩ : BufTy).Contents (Elt F) → (⟨S10000x128, .f32⟩ : BufTy).Contents (Elt F)),
    nullary main_cst_8 (constant S_ .f32 0x00000000#32),
    binary main_v55 main_cst_8 main_v56 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    nullary main_cst_9 (constant S_ .f32 0x461C4000#32),
    unary main_cst_9 main_v57 (broadcastInDim S128 ![] bcast_S_S128 : (⟨S_, .f32⟩ : BufTy).Contents (Elt F) → (⟨S128, .f32⟩ : BufTy).Contents (Elt F)),
    binary main_v56 main_v57 main_v58 (Host.divf : (⟨S128, .f32⟩ : BufTy).Contents (Elt F) → (⟨S128, .f32⟩ : BufTy).Contents (Elt F) → (⟨S128, .f32⟩ : BufTy).Contents (Elt F)),
    unary main_v51 main_v59 (broadcastInDim S1x128 ![1] bcast_S128_S1x128_1 : (⟨S128, .f32⟩ : BufTy).Contents (Elt F) → (⟨S1x128, .f32⟩ : BufTy).Contents (Elt F)),
    unary main_v59 main_v60 (broadcastInDim S10000x128 ![0, 1] bcast_S1x128_S10000x128_0_1 : (⟨S1x128, .f32⟩ : BufTy).Contents (Elt F) → (⟨S10000x128, .f32⟩ : BufTy).Contents (Elt F)),
    binary main_v48 main_v60 main_v61 (subf : (⟨S10000x128, .f32⟩ : BufTy).Contents (Elt F) → (⟨S10000x128, .f32⟩ : BufTy).Contents (Elt F) → (⟨S10000x128, .f32⟩ : BufTy).Contents (Elt F)),
    unary main_arg10 main_v62 (broadcastInDim S1x128 ![1] bcast_S128_S1x128_1 : (⟨S128, .f32⟩ : BufTy).Contents (Elt F) → (⟨S1x128, .f32⟩ : BufTy).Contents (Elt F)),
    unary main_v62 main_v63 (broadcastInDim S10000x128 ![0, 1] bcast_S1x128_S10000x128_0_1 : (⟨S1x128, .f32⟩ : BufTy).Contents (Elt F) → (⟨S10000x128, .f32⟩ : BufTy).Contents (Elt F)),
    binary main_v63 main_v61 main_v64 (mulf : (⟨S10000x128, .f32⟩ : BufTy).Contents (Elt F) → (⟨S10000x128, .f32⟩ : BufTy).Contents (Elt F) → (⟨S10000x128, .f32⟩ : BufTy).Contents (Elt F)),
    nullary main_cst_10 (constant S_ .f32 0x3727C5AC#32),
    unary main_cst_10 main_v65 (broadcastInDim S128 ![] bcast_S_S128 : (⟨S_, .f32⟩ : BufTy).Contents (Elt F) → (⟨S128, .f32⟩ : BufTy).Contents (Elt F)),
    binary main_v58 main_v65 main_v66 (addf : (⟨S128, .f32⟩ : BufTy).Contents (Elt F) → (⟨S128, .f32⟩ : BufTy).Contents (Elt F) → (⟨S128, .f32⟩ : BufTy).Contents (Elt F)),
    unary main_v66 main_v67 (Host.rsqrt : (⟨S128, .f32⟩ : BufTy).Contents (Elt F) → (⟨S128, .f32⟩ : BufTy).Contents (Elt F)),
    unary main_v67 main_v68 (broadcastInDim S1x128 ![1] bcast_S128_S1x128_1 : (⟨S128, .f32⟩ : BufTy).Contents (Elt F) → (⟨S1x128, .f32⟩ : BufTy).Contents (Elt F)),
    unary main_v68 main_v69 (broadcastInDim S10000x128 ![0, 1] bcast_S1x128_S10000x128_0_1 : (⟨S1x128, .f32⟩ : BufTy).Contents (Elt F) → (⟨S10000x128, .f32⟩ : BufTy).Contents (Elt F)),
    binary main_v64 main_v69 main_v70 (mulf : (⟨S10000x128, .f32⟩ : BufTy).Contents (Elt F) → (⟨S10000x128, .f32⟩ : BufTy).Contents (Elt F) → (⟨S10000x128, .f32⟩ : BufTy).Contents (Elt F)),
    unary main_arg11 main_v71 (broadcastInDim S1x128 ![1] bcast_S128_S1x128_1 : (⟨S128, .f32⟩ : BufTy).Contents (Elt F) → (⟨S1x128, .f32⟩ : BufTy).Contents (Elt F)),
    unary main_v71 main_v72 (broadcastInDim S10000x128 ![0, 1] bcast_S1x128_S10000x128_0_1 : (⟨S1x128, .f32⟩ : BufTy).Contents (Elt F) → (⟨S10000x128, .f32⟩ : BufTy).Contents (Elt F)),
    binary main_v70 main_v72 main_v73 (addf : (⟨S10000x128, .f32⟩ : BufTy).Contents (Elt F) → (⟨S10000x128, .f32⟩ : BufTy).Contents (Elt F) → (⟨S10000x128, .f32⟩ : BufTy).Contents (Elt F)) ]

/-- The buffers the operations of `opsBN2` write, in order. -/
abbrev wBN2 : List (Ref sig .tc) :=
  [main_cst_6, main_v49, main_cst_7, main_v50, main_v51, main_v52, main_v53, main_v54, main_v55, main_cst_8, main_v56, main_cst_9, main_v57, main_v58, main_v59, main_v60, main_v61, main_v62, main_v63, main_v64, main_cst_10, main_v65, main_v66, main_v67, main_v68, main_v69, main_v70, main_v71, main_v72, main_v73]

/-- Layer 3, aggregation: gather, scale, sum. Ends at `main_v80`. (30 operations.) -/
abbrev opsAgg3 : List (HloOp τ sig (Elt F)) :=
  [ unary main_arg3 main_v74 (broadcastInDim S640000x1 ![0] bcast_S640000_S640000x1_0 : (⟨S640000, .f32⟩ : BufTy).Contents (Elt F) → (⟨S640000x1, .f32⟩ : BufTy).Contents (Elt F)),
    nullary main_call4_c (constantI S_ 32 0#32),
    unary main_call4_c main_call4_v0 (broadcastInDim S640000 ![] bcast_S_S640000 : (⟨S_, .i32⟩ : BufTy).Contents (Elt F) → (⟨S640000, .i32⟩ : BufTy).Contents (Elt F)),
    binary main_arg2 main_call4_v0 main_call4_v1 (cmpi .slt : (⟨S640000, .i32⟩ : BufTy).Contents (Elt F) → (⟨S640000, .i32⟩ : BufTy).Contents (Elt F) → (⟨S640000, .i1⟩ : BufTy).Contents (Elt F)),
    nullary main_call4_c_0 (constantI S_ 32 10000#32),
    unary main_call4_c_0 main_call4_v2 (broadcastInDim S640000 ![] bcast_S_S640000 : (⟨S_, .i32⟩ : BufTy).Contents (Elt F) → (⟨S640000, .i32⟩ : BufTy).Contents (Elt F)),
    binary main_arg2 main_call4_v2 main_call4_v3 (addi : (⟨S640000, .i32⟩ : BufTy).Contents (Elt F) → (⟨S640000, .i32⟩ : BufTy).Contents (Elt F) → (⟨S640000, .i32⟩ : BufTy).Contents (Elt F)),
    ternary main_call4_v1 main_call4_v3 main_arg2 main_call4_v4 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_call4_v4 main_call4_v5 (broadcastInDim S640000x1 ![0] bcast_S640000_S640000x1_0 : (⟨S640000, .i32⟩ : BufTy).Contents (Elt F) → (⟨S640000x1, .i32⟩ : BufTy).Contents (Elt F)),
    nullary main_call4_c_1 (constantI S1 32 9999#32),
    nullary main_call4_c_2 (constantI S_ 32 0#32),
    unary main_call4_c_2 main_call4_v6 (broadcastInDim S640000x1 ![] bcast_S_S640000x1 : (⟨S_, .i32⟩ : BufTy).Contents (Elt F) → (⟨S640000x1, .i32⟩ : BufTy).Contents (Elt F)),
    binary main_call4_v5 main_call4_v6 main_call4_v7 (cmpi .sge : (⟨S640000x1, .i32⟩ : BufTy).Contents (Elt F) → (⟨S640000x1, .i32⟩ : BufTy).Contents (Elt F) → (⟨S640000x1, .i1⟩ : BufTy).Contents (Elt F)),
    unary main_call4_c_1 main_call4_v8 (broadcastInDim S1x1 ![1] bcast_S1_S1x1_1 : (⟨S1, .i32⟩ : BufTy).Contents (Elt F) → (⟨S1x1, .i32⟩ : BufTy).Contents (Elt F)),
    unary main_call4_v8 main_call4_v9 (broadcastInDim S640000x1 ![0, 1] bcast_S1x1_S640000x1_0_1 : (⟨S1x1, .i32⟩ : BufTy).Contents (Elt F) → (⟨S640000x1, .i32⟩ : BufTy).Contents (Elt F)),
    binary main_call4_v5 main_call4_v9 main_call4_v10 (cmpi .sle : (⟨S640000x1, .i32⟩ : BufTy).Contents (Elt F) → (⟨S640000x1, .i32⟩ : BufTy).Contents (Elt F) → (⟨S640000x1, .i1⟩ : BufTy).Contents (Elt F)),
    binary main_call4_v7 main_call4_v10 main_call4_v11 (andi : (⟨S640000x1, .i1⟩ : BufTy).Contents (Elt F) → (⟨S640000x1, .i1⟩ : BufTy).Contents (Elt F) → (⟨S640000x1, .i1⟩ : BufTy).Contents (Elt F)),
    nullary main_call4_c_3 (constantI S_ 1 1#1),
    binary main_call4_v11 main_call4_c_3 main_call4_v12 ((fun x v => Host.reduce IntOp.andi x v reducesTo_S640000x1_S640000_d1 h_S_) : (⟨S640000x1, .i1⟩ : BufTy).Contents (Elt F) → (⟨S_, .i1⟩ : BufTy).Contents (Elt F) → (⟨S640000, .i1⟩ : BufTy).Contents (Elt F)),
    binary main_v73 main_call4_v5 main_call4_v13 ((fun x i => Host.gather gather_S10000x128_S640000x1_S640000x128_1_0_n_n_0_1_1128 x i) : (⟨S10000x128, .f32⟩ : BufTy).Contents (Elt F) → (⟨S640000x1, .i32⟩ : BufTy).Contents (Elt F) → (⟨S640000x128, .f32⟩ : BufTy).Contents (Elt F)),
    unary main_call4_v12 main_call4_v14 (broadcastInDim S640000x128 ![0] bcast_S640000_S640000x128_0 : (⟨S640000, .i1⟩ : BufTy).Contents (Elt F) → (⟨S640000x128, .i1⟩ : BufTy).Contents (Elt F)),
    nullary main_call4_cst (constant S_ .f32 0x7FC00000#32),
    unary main_call4_cst main_call4_v15 (broadcastInDim S640000x128 ![] bcast_S_S640000x128 : (⟨S_, .f32⟩ : BufTy).Contents (Elt F) → (⟨S640000x128, .f32⟩ : BufTy).Contents (Elt F)),
    ternary main_call4_v14 main_call4_v13 main_call4_v15 main_v75 (select : (⟨S640000x128, .i1⟩ : BufTy).Contents (Elt F) → (⟨S640000x128, .f32⟩ : BufTy).Contents (Elt F) → (⟨S640000x128, .f32⟩ : BufTy).Contents (Elt F) → (⟨S640000x128, .f32⟩ : BufTy).Contents (Elt F)),
    unary main_v74 main_v76 (broadcastInDim S640000x128 ![0, 1] bcast_S640000x1_S640000x128_0_1 : (⟨S640000x1, .f32⟩ : BufTy).Contents (Elt F) → (⟨S640000x128, .f32⟩ : BufTy).Contents (Elt F)),
    binary main_v76 main_v75 main_v77 (mulf : (⟨S640000x128, .f32⟩ : BufTy).Contents (Elt F) → (⟨S640000x128, .f32⟩ : BufTy).Contents (Elt F) → (⟨S640000x128, .f32⟩ : BufTy).Contents (Elt F)),
    nullary main_cst_11 (constant S_ .f32 0x00000000#32),
    unary main_cst_11 main_v78 (broadcastInDim S10000x128 ![] bcast_S_S10000x128 : (⟨S_, .f32⟩ : BufTy).Contents (Elt F) → (⟨S10000x128, .f32⟩ : BufTy).Contents (Elt F)),
    unary main_arg1 main_v79 (broadcastInDim S640000x1 ![0] bcast_S640000_S640000x1_0 : (⟨S640000, .i32⟩ : BufTy).Contents (Elt F) → (⟨S640000x1, .i32⟩ : BufTy).Contents (Elt F)),
    ternary main_v78 main_v79 main_v77 main_v80 ((fun x i u => Host.scatterAdd scatter_S10000x128_S640000x1_S640000x128_1_0_0_1 x i u) : (⟨S10000x128, .f32⟩ : BufTy).Contents (Elt F) → (⟨S640000x1, .i32⟩ : BufTy).Contents (Elt F) → (⟨S640000x128, .f32⟩ : BufTy).Contents (Elt F) → (⟨S10000x128, .f32⟩ : BufTy).Contents (Elt F)) ]

/-- The buffers the operations of `opsAgg3` write, in order. -/
abbrev wAgg3 : List (Ref sig .tc) :=
  [main_v74, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v75, main_v76, main_v77, main_cst_11, main_v78, main_v79, main_v80]

/-- Layer 3, linear map onto the 40 classes: times the third weight matrix, plus the bias. Ends at `main_v84`. (4 operations.) -/
abbrev opsLin3 : List (HloOp τ sig (Elt F)) :=
  [ binary main_v80 main_arg12 main_v81 ((fun l r => Host.dotGeneral dot_S10000x128_S128x40_S10000x40_1_0_0_1_n_n none l r) : (⟨S10000x128, .f32⟩ : BufTy).Contents (Elt F) → (⟨S128x40, .f32⟩ : BufTy).Contents (Elt F) → (⟨S10000x40, .f32⟩ : BufTy).Contents (Elt F)),
    unary main_arg13 main_v82 (broadcastInDim S1x40 ![1] bcast_S40_S1x40_1 : (⟨S40, .f32⟩ : BufTy).Contents (Elt F) → (⟨S1x40, .f32⟩ : BufTy).Contents (Elt F)),
    unary main_v82 main_v83 (broadcastInDim S10000x40 ![0, 1] bcast_S1x40_S10000x40_0_1 : (⟨S1x40, .f32⟩ : BufTy).Contents (Elt F) → (⟨S10000x40, .f32⟩ : BufTy).Contents (Elt F)),
    binary main_v81 main_v83 main_v84 (addf : (⟨S10000x40, .f32⟩ : BufTy).Contents (Elt F) → (⟨S10000x40, .f32⟩ : BufTy).Contents (Elt F) → (⟨S10000x40, .f32⟩ : BufTy).Contents (Elt F)) ]

/-- The buffers the operations of `opsLin3` write, in order. -/
abbrev wLin3 : List (Ref sig .tc) :=
  [main_v81, main_v82, main_v83, main_v84]

/-- The logarithm of the softmax along each row: subtract the row maximum, then subtract the logarithm of the row sum of the exponentials. Ends at `main_v85`. (15 operations.) -/
abbrev opsLogSoftmax : List (HloOp τ sig (Elt F)) :=
  [ nullary main_call5_cst (constant S_ .f32 0xFF800000#32),
    binary main_v84 main_call5_cst main_call5_v0 ((fun x v => Host.reduce FloatOps.maximumf x v reducesTo_S10000x40_S10000_d1 h_S_) : (⟨S10000x40, .f32⟩ : BufTy).Contents (Elt F) → (⟨S_, .f32⟩ : BufTy).Contents (Elt F) → (⟨S10000, .f32⟩ : BufTy).Contents (Elt F)),
    nullary main_call5_cst_0 (constant S_ .f32 0xFF800000#32),
    unary main_call5_cst_0 main_call5_v1 (broadcastInDim S10000 ![] bcast_S_S10000 : (⟨S_, .f32⟩ : BufTy).Contents (Elt F) → (⟨S10000, .f32⟩ : BufTy).Contents (Elt F)),
    binary main_call5_v1 main_call5_v0 main_call5_v2 (maximumf : (⟨S10000, .f32⟩ : BufTy).Contents (Elt F) → (⟨S10000, .f32⟩ : BufTy).Contents (Elt F) → (⟨S10000, .f32⟩ : BufTy).Contents (Elt F)),
    unary main_call5_v2 main_call5_v3 (broadcastInDim S10000x1 ![0] bcast_S10000_S10000x1_0 : (⟨S10000, .f32⟩ : BufTy).Contents (Elt F) → (⟨S10000x1, .f32⟩ : BufTy).Contents (Elt F)),
    unary main_call5_v3 main_call5_v4 (broadcastInDim S10000x40 ![0, 1] bcast_S10000x1_S10000x40_0_1 : (⟨S10000x1, .f32⟩ : BufTy).Contents (Elt F) → (⟨S10000x40, .f32⟩ : BufTy).Contents (Elt F)),
    binary main_v84 main_call5_v4 main_call5_v5 (subf : (⟨S10000x40, .f32⟩ : BufTy).Contents (Elt F) → (⟨S10000x40, .f32⟩ : BufTy).Contents (Elt F) → (⟨S10000x40, .f32⟩ : BufTy).Contents (Elt F)),
    unary main_call5_v5 main_call5_v6 (Host.exp : (⟨S10000x40, .f32⟩ : BufTy).Contents (Elt F) → (⟨S10000x40, .f32⟩ : BufTy).Contents (Elt F)),
    nullary main_call5_cst_1 (constant S_ .f32 0x00000000#32),
    binary main_call5_v6 main_call5_cst_1 main_call5_v7 ((fun x v => Host.reduceAdd x v reducesTo_S10000x40_S10000_d1 h_S_) : (⟨S10000x40, .f32⟩ : BufTy).Contents (Elt F) → (⟨S_, .f32⟩ : BufTy).Contents (Elt F) → (⟨S10000, .f32⟩ : BufTy).Contents (Elt F)),
    unary main_call5_v7 main_call5_v8 (broadcastInDim S10000x1 ![0] bcast_S10000_S10000x1_0 : (⟨S10000, .f32⟩ : BufTy).Contents (Elt F) → (⟨S10000x1, .f32⟩ : BufTy).Contents (Elt F)),
    unary main_call5_v8 main_call5_v9 (Host.log : (⟨S10000x1, .f32⟩ : BufTy).Contents (Elt F) → (⟨S10000x1, .f32⟩ : BufTy).Contents (Elt F)),
    unary main_call5_v9 main_call5_v10 (broadcastInDim S10000x40 ![0, 1] bcast_S10000x1_S10000x40_0_1 : (⟨S10000x1, .f32⟩ : BufTy).Contents (Elt F) → (⟨S10000x40, .f32⟩ : BufTy).Contents (Elt F)),
    binary main_call5_v5 main_call5_v10 main_v85 (subf : (⟨S10000x40, .f32⟩ : BufTy).Contents (Elt F) → (⟨S10000x40, .f32⟩ : BufTy).Contents (Elt F) → (⟨S10000x40, .f32⟩ : BufTy).Contents (Elt F)) ]

/-- The buffers the operations of `opsLogSoftmax` write, in order. -/
abbrev wLogSoftmax : List (Ref sig .tc) :=
  [main_call5_cst, main_call5_v0, main_call5_cst_0, main_call5_v1, main_call5_v2, main_call5_v3, main_call5_v4, main_call5_v5, main_call5_v6, main_call5_cst_1, main_call5_v7, main_call5_v8, main_call5_v9, main_call5_v10, main_v85]

/-- @main's 183 operations, in order. -/
abbrev ops : List (HloOp τ sig (Elt F)) :=
  opsAgg1 (F := F) ++ opsLin1 (F := F) ++ opsBN1 (F := F) ++ opsAgg2 (F := F) ++ opsLin2 (F := F) ++ opsBN2 (F := F) ++ opsAgg3 (F := F) ++ opsLin3 (F := F) ++ opsLogSoftmax (F := F)

end Cert.ReferenceIdeal.RefRun

end
-- ==== Proof.RefRun.lean ====
import proofs.«418163_j13657996001620_2_alg».proof.Proof.RefOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem writes_sub {W : List (Ref sig .tc)} {op : HloOp τ sig (Elt F)} (y : Ref sig .tc)
    (h : op.writes = {Proc.devRef .tc y}) (hy : y ∈ W) : op.writes ⊆ (W.map (Proc.devRef (τ := τ) .tc)).toFinset := by
  rw [h, Finset.singleton_subset_iff, List.mem_toFinset]
  exact List.mem_map.mpr ⟨y, hy, rfl⟩

macro "each_op " t:tacticSeq : tactic => `(tactic| repeat' (first | ($t) | refine And.intro ?_ ?_))

-- Three facts about a line of operations, kept together; W lists every buffer the line writes.
structure Stretch (l : List (HloOp τ sig (Elt F))) (W : List (Ref sig .tc)) : Prop where
  sub : l.Forall fun op => op.bufs ⊆ tcRefs τ sig
  fresh : l.Forall fun op => op.fresh = ∅
  writes : l.Forall fun op => op.writes ⊆ (W.map (Proc.devRef (τ := τ) .tc)).toFinset

namespace Stretch
variable {l l₁ l₂ : List (HloOp τ sig (Elt F))} {W W₁ W₂ : List (Ref sig .tc)}

theorem frame (h : Stretch l W) (V : Valuation τ sig (Elt F)) {r : Ref sig .tc} (hr : r ∉ W) :
    after l V (Proc.devRef .tc r) = V (Proc.devRef .tc r) :=
  after_of_writes_sub l V h.writes hr

theorem append (h₁ : Stretch l₁ W₁) (h₂ : Stretch l₂ W₂) : Stretch (l₁ ++ l₂) (W₁ ++ W₂) :=
  have hW : ((W₁ ++ W₂).map (Proc.devRef (τ := τ) .tc)).toFinset
      = (W₁.map (Proc.devRef (τ := τ) .tc)).toFinset ∪ (W₂.map (Proc.devRef (τ := τ) .tc)).toFinset := by
    rw [List.map_append, List.toFinset_append]
  ⟨List.forall_append.mpr ⟨h₁.sub, h₂.sub⟩, List.forall_append.mpr ⟨h₁.fresh, h₂.fresh⟩,
    List.forall_append.mpr ⟨h₁.writes.imp fun _ h => hW ▸ h.trans Finset.subset_union_left,
      h₂.writes.imp fun _ h => hW ▸ h.trans Finset.subset_union_right⟩⟩

end Stretch

-- All nine stretches at once: each fact is checked operation by operation.
theorem st_all :
    Stretch (F := F) opsAgg1 wAgg1 ∧ Stretch (F := F) opsLin1 wLin1 ∧ Stretch (F := F) opsBN1 wBN1
      ∧ Stretch (F := F) opsAgg2 wAgg2 ∧ Stretch (F := F) opsLin2 wLin2 ∧ Stretch (F := F) opsBN2 wBN2
      ∧ Stretch (F := F) opsAgg3 wAgg3 ∧ Stretch (F := F) opsLin3 wLin3 ∧ Stretch (F := F) opsLogSoftmax wLogSoftmax := by
  refine ⟨?_, ?_, ?_, ?_, ?_, ?_, ?_, ?_, ?_⟩ <;>
    exact ⟨by simp only [List.Forall, nullary_bufs_sub, unary_bufs_sub, binary_bufs_sub, ternary_bufs_sub, and_self],
      by each_op (exact rfl), by each_op (exact writes_sub _ rfl (by decide))⟩

abbrev written : List (Ref sig .tc) :=
  wAgg1 ++ wLin1 ++ wBN1 ++ wAgg2 ++ wLin2 ++ wBN2 ++ wAgg3 ++ wLin3 ++ wLogSoftmax

theorem st_ops : Stretch (F := F) ops written :=
  let ⟨s1, s2, s3, s4, s5, s6, s7, s8, s9⟩ := st_all (F := F)
  (((((((s1.append s2).append s3).append s4).append s5).append s6).append s7).append s8).append s9

theorem after_ops (V : Valuation τ sig (Elt F)) :
    after ops V = after opsLogSoftmax (after opsLin3 (after opsAgg3 (after opsBN2 (after opsLin2 (after opsAgg2
      (after opsBN1 (after opsLin1 (after opsAgg1 V)))))))) := by
  simp only [ops, after_append]

theorem run_args (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8)
    ∧ after ops V (Proc.devRef .tc main_arg9) = V (Proc.devRef .tc main_arg9)
    ∧ after ops V (Proc.devRef .tc main_arg10) = V (Proc.devRef .tc main_arg10)
    ∧ after ops V (Proc.devRef .tc main_arg11) = V (Proc.devRef .tc main_arg11)
    ∧ after ops V (Proc.devRef .tc main_arg12) = V (Proc.devRef .tc main_arg12)
    ∧ after ops V (Proc.devRef .tc main_arg13) = V (Proc.devRef .tc main_arg13) := by
  each_op (exact st_ops.frame V (by decide))

attribute [local irreducible] Host.reduce Host.gather in
set_option maxRecDepth 8192 in
set_option maxHeartbeats 4000000 in
-- Both sides are one chain of steps once each call is replaced by its body and the sequencing re-associated.
theorem main_eq (c : Dev nD) : main (F := F) c = seq ops := by
  simp only [main, main_part0, main_part1, fn_take.body, fn_take_0.body, fn_where.body, fn_relu.body, fn_log_softmax.body,
    ops, opsAgg1, opsLin1, opsBN1, opsAgg2, opsLin2, opsBN2, opsAgg3, opsLin3, opsLogSoftmax,
    List.append_assoc, List.cons_append, List.nil_append, seq, bind_assoc, pure_bind]
  rfl

theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq (by decide) (by decide) defs main (fun _ => ops) main_eq (fun _ => st_ops.sub) m ρ
    fun _ => List.forall_iff_forall_mem.mp st_ops.fresh

end Cert.ReferenceIdeal.RefRun

end
-- ==== Proof.Spec.lean ====
import Idealize.ShloMosaic.PureOps.Ideal
import Idealize.ShloMosaic.Lib.ValueIdx

noncomputable section

namespace Cert.Spec

open Idealize.ShloMosaic

def IsReal (x : EReal) : Prop := ∃ r : ℝ, x = (r : EReal)

theorem isReal_coe (x : ℝ) : IsReal (x : EReal) := ⟨x, rfl⟩

theorem isReal_zero : IsReal 0 := ⟨0, rfl⟩

theorem isReal_add {x y : EReal} : IsReal x → IsReal y → IsReal (x + y)
  | ⟨a, ha⟩, ⟨b, hb⟩ => ⟨a + b, by rw [ha, hb, EReal.coe_add]⟩

theorem isReal_mul {x y : EReal} : IsReal x → IsReal y → IsReal (x * y)
  | ⟨a, ha⟩, ⟨b, hb⟩ => ⟨a * b, by rw [ha, hb, EReal.coe_mul]⟩

theorem isReal_sub {x y : EReal} : IsReal x → IsReal y → IsReal (x - y)
  | ⟨a, ha⟩, ⟨b, hb⟩ => ⟨a - b, by rw [ha, hb, EReal.coe_sub]⟩

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

-- Real-valued summands are the coercions of a real family, and coercion commutes with finite sums.
theorem sum_eq_coe {ι : Type*} (s : Finset ι) {f : ι → EReal} {g : ι → ℝ} (hg : ∀ i, f i = (g i : EReal)) :
    ∑ i ∈ s, f i = ((∑ i ∈ s, g i : ℝ) : EReal) := by
  rw [coe_sum]; exact Finset.sum_congr rfl fun i _ => hg i

theorem isReal_sum {ι : Type*} (s : Finset ι) (f : ι → EReal) (hf : ∀ i, IsReal (f i)) :
    IsReal (∑ i ∈ s, f i) := by
  choose g hg using hf
  exact ⟨_, sum_eq_coe s hg⟩

-- Multiplication distributes over a finite sum of reals; over sums mixing the two infinities it does not.
theorem sum_mul_real {ι : Type*} (s : Finset ι) (f : ι → EReal) (hf : ∀ i, IsReal (f i)) {c : EReal}
    (hc : IsReal c) : (∑ i ∈ s, f i) * c = ∑ i ∈ s, f i * c := by
  choose g hg using hf
  obtain ⟨z, rfl⟩ := hc
  rw [sum_eq_coe s hg, ← EReal.coe_mul, Finset.sum_mul, sum_eq_coe s fun i => by rw [hg i, ← EReal.coe_mul]]

abbrev Mat (n d : Nat) := Fin n → Fin d → EReal

abbrev Edge := Fin 640000

section Agg
variable (row col : Edge → Int) (val : Edge → EReal)

def adj (r k : Fin 10240) : EReal :=
  ∑ e ∈ Finset.univ.filter (fun e : Edge => row e = (r.val : Int) ∧ col e = (k.val : Int)), val e

def padRows (h : Mat 10000 128) : Mat 10240 128 :=
  fun k j => if hk : k.val < 10000 then h ⟨k.val, hk⟩ j else 0

def aggDense (H : Mat 10240 128) (r : Fin 10240) (j : Fin 128) : EReal :=
  ∑ k : Fin 10240, adj row col val r k * H k j

def aggEdges (h : Mat 10000 128) (r : Fin 10000) (j : Fin 128) : EReal :=
  ∑ e ∈ Finset.univ.filter (fun e : Edge => row e = (r.val : Int)),
    val e * h ⟨min (col e).toNat 9999, by omega⟩ j

-- Distribute each adjacency entry over its feature, swap the two sums, and keep for each edge its one source.
theorem agg_eq (hrow : ∀ e, 0 ≤ row e ∧ row e < 10000) (hcol : ∀ e, 0 ≤ col e ∧ col e < 10000)
    (hval : ∀ e, IsReal (val e)) (h : Mat 10000 128) (hh : ∀ r j, IsReal (h r j)) (r : Fin 10000) (j : Fin 128) :
    aggDense row col val (padRows h) ⟨r.val, by omega⟩ j = aggEdges row col val h r j := by
  have hpad : ∀ k, IsReal (padRows h k j) := fun k => by
    unfold padRows
    split
    exacts [hh _ j, isReal_zero]
  unfold aggDense adj aggEdges
  rw [Finset.sum_congr rfl fun k _ => sum_mul_real _ val hval (hpad k)]
  have hsplit : ∀ k : Fin 10240,
      (∑ e ∈ Finset.univ.filter (fun e : Edge => row e = (r.val : Int) ∧ col e = (k.val : Int)),
          val e * padRows h k j)
        = ∑ e ∈ Finset.univ.filter (fun e : Edge => row e = (r.val : Int)),
            if col e = (k.val : Int) then val e * padRows h k j else 0 := fun k => by
    rw [← Finset.filter_filter, Finset.sum_filter]
  rw [Finset.sum_congr rfl fun k _ => hsplit k, Finset.sum_comm]
  refine Finset.sum_congr rfl fun e _ => ?_
  obtain ⟨h0, h1⟩ := hcol e
  have hlt : (col e).toNat < 10000 := by omega
  rw [Finset.sum_eq_single (⟨(col e).toNat, by omega⟩ : Fin 10240), if_pos (by simp only []; omega)]
  · unfold padRows
    rw [dif_pos hlt]
    congr 2
    exact Fin.ext (by simp only []; omega)
  · intro k _ hk
    exact if_neg fun hc => hk (Fin.ext (by simp only []; omega))
  · exact fun hn => absurd (Finset.mem_univ _) hn

theorem isReal_aggEdges (hval : ∀ e, IsReal (val e)) (h : Mat 10000 128) (hh : ∀ r j, IsReal (h r j))
    (r : Fin 10000) (j : Fin 128) : IsReal (aggEdges row col val h r j) :=
  isReal_sum _ _ fun e => isReal_mul (hval e) (hh _ j)

end Agg

def lin {n d : Nat} (acc : Mat n 128) (W : Mat 128 d) (b : Fin d → EReal) : Mat n d :=
  fun r f => (∑ j : Fin 128, acc r j * W j f) + b f

theorem isReal_lin {n d : Nat} (acc : Mat n 128) (W : Mat 128 d) (b : Fin d → EReal)
    (hacc : ∀ r j, IsReal (acc r j)) (hW : ∀ j f, IsReal (W j f)) (hb : ∀ f, IsReal (b f)) (r : Fin n) (f : Fin d) :
    IsReal (lin acc W b r f) :=
  isReal_add (isReal_sum _ _ fun j => isReal_mul (hacc r j) (hW j f)) (hb f)

theorem isReal_max_zero (x : EReal) (hx : IsReal x) : IsReal (max x 0) := by
  rcases max_choice x 0 with h | h <;> rw [h]
  exacts [hx, isReal_zero]

abbrev nNodes : EReal := Ideal.ofBits .f32 0x461C4000#32
abbrev bnEps : EReal := Ideal.ofBits .f32 0x3727C5AC#32

theorem nNodes_eq : nNodes = ((10000 : ℝ) : EReal) := by
  have h : nNodes = ((10240000 * (2 : ℝ) ^ (-10 : Int) : ℝ) : EReal) := by
    simp [Ideal.ofBits, Ideal.ieee]
  rw [h]
  congr 1
  norm_num

theorem bnEps_eq : bnEps = ((10995116 * (2 : ℝ) ^ (-40 : Int) : ℝ) : EReal) := by
  simp [Ideal.ofBits, Ideal.ieee]

def colMean (y : Mat 10000 128) (f : Fin 128) : EReal := Ideal.div (∑ r : Fin 10000, y r f) nNodes

def colVar (y : Mat 10000 128) (f : Fin 128) : EReal :=
  Ideal.div (∑ r : Fin 10000, (y r f - colMean y f) * (y r f - colMean y f)) nNodes

theorem isReal_colMean (y : Mat 10000 128) (hy : ∀ r f, IsReal (y r f)) (f : Fin 128) : IsReal (colMean y f) := by
  unfold colMean
  rw [nNodes_eq, Ideal.div_coe (by norm_num)]
  exact isReal_mul (isReal_sum _ _ fun r => hy r f) (isReal_coe _)

-- A sum of squares of reals over a positive count.
theorem colVar_real (y : Mat 10000 128) (hy : ∀ r f, IsReal (y r f)) (f : Fin 128) :
    ∃ v : ℝ, 0 ≤ v ∧ colVar y f = (v : EReal) := by
  obtain ⟨m, hm⟩ := isReal_colMean y hy f
  choose Y hY using hy
  refine ⟨(∑ r : Fin 10000, (Y r f - m) * (Y r f - m)) * (1 / 10000),
    mul_nonneg (Finset.sum_nonneg fun r _ => mul_self_nonneg _) (by norm_num), ?_⟩
  unfold colVar
  rw [nNodes_eq, Ideal.div_coe (by norm_num), EReal.coe_mul,
    sum_eq_coe _ fun r => by rw [hY r f, hm, ← EReal.coe_sub, ← EReal.coe_mul]]

def bnAt (y : Mat 10000 128) (γ β : Fin 128 → EReal) (r : Fin 10000) (f : Fin 128) : EReal :=
  γ f * (y r f - colMean y f) * Ideal.rsqrt (colVar y f + bnEps) + β f

-- The variance is a nonnegative real and the added constant is positive, so the reciprocal square root is real.
theorem isReal_bnAt (y : Mat 10000 128) (γ β : Fin 128 → EReal) (hy : ∀ r f, IsReal (y r f))
    (hγ : ∀ f, IsReal (γ f)) (hβ : ∀ f, IsReal (β f)) (r : Fin 10000) (f : Fin 128) : IsReal (bnAt y γ β r f) := by
  obtain ⟨v, hv0, hv⟩ := colVar_real y hy f
  have hpos : 0 < v + 10995116 * (2 : ℝ) ^ (-40 : Int) := add_pos_of_nonneg_of_pos hv0 (by positivity)
  unfold bnAt
  rw [hv, bnEps_eq, ← EReal.coe_add, Ideal.rsqrt_coe, if_neg (not_lt.mpr hpos.le), if_neg hpos.ne']
  exact isReal_add (isReal_mul (isReal_mul (hγ f) (isReal_sub (hy r f) (isReal_colMean y hy f))) (isReal_coe _)) (hβ f)

end Cert.Spec

end
-- ==== Proof.Layers.lean ====
import proofs.«418163_j13657996001620_2_alg».proof.Proof.Spec

noncomputable section

namespace Cert.Spec

def padCols (W : Mat 128 40) : Mat 128 128 :=
  fun j f => if hf : f.val < 40 then W j ⟨f.val, hf⟩ else 0

def padVec (b : Fin 40 → EReal) : Fin 128 → EReal :=
  fun f => if hf : f.val < 40 then b ⟨f.val, hf⟩ else 0

-- A kept column of the widened weights and bias is the column itself.
theorem lin_padCols {n : Nat} (acc : Mat n 128) (W3 : Mat 128 40) (b3 : Fin 40 → EReal) (r : Fin n) (f : Fin 40) :
    lin acc (padCols W3) (padVec b3) r ⟨f.val, by omega⟩ = lin acc W3 b3 r f := by
  simp only [lin, padCols, padVec, dif_pos f.isLt]

def hidden (acc : Mat 10000 128) (W : Mat 128 128) (b γ β : Fin 128 → EReal) : Mat 10000 128 :=
  bnAt (fun r f => max (lin acc W b r f) 0) γ β

theorem isReal_hidden {acc : Mat 10000 128} {W : Mat 128 128} {b γ β : Fin 128 → EReal}
    (hacc : ∀ r j, IsReal (acc r j)) (hW : ∀ j f, IsReal (W j f)) (hb : ∀ f, IsReal (b f))
    (hγ : ∀ f, IsReal (γ f)) (hβ : ∀ f, IsReal (β f)) (r : Fin 10000) (f : Fin 128) :
    IsReal (hidden acc W b γ β r f) :=
  isReal_bnAt _ γ β (fun r f => isReal_max_zero _ (isReal_lin _ W b hacc hW hb r f)) hγ hβ r f

section Net
variable (row col : Edge → Int) (val : Edge → EReal)

def aggD (h : Mat 10000 128) : Mat 10000 128 :=
  fun r => aggDense row col val (padRows h) ⟨r.val, by omega⟩

variable {row col val} (hrow : ∀ e, 0 ≤ row e ∧ row e < 10000) (hcol : ∀ e, 0 ≤ col e ∧ col e < 10000)
  (hval : ∀ e, IsReal (val e))
include hrow hcol hval

theorem aggD_eq {h : Mat 10000 128} (hh : ∀ r j, IsReal (h r j)) : aggD row col val h = aggEdges row col val h :=
  funext fun r => funext fun j => agg_eq row col val hrow hcol hval h hh r j

-- A hidden layer of real data is real again, so the two aggregates agree from layer to layer.
theorem net_eq {x : Mat 10000 128} {W1 W2 : Mat 128 128} {b1 γ2 β2 b2 γ3 β3 : Fin 128 → EReal}
    {W3 : Mat 128 40} {b3 : Fin 40 → EReal} (hx : ∀ r j, IsReal (x r j))
    (hW1 : ∀ j f, IsReal (W1 j f)) (hb1 : ∀ f, IsReal (b1 f)) (hγ2 : ∀ f, IsReal (γ2 f)) (hβ2 : ∀ f, IsReal (β2 f))
    (hW2 : ∀ j f, IsReal (W2 j f)) (hb2 : ∀ f, IsReal (b2 f)) (hγ3 : ∀ f, IsReal (γ3 f)) (hβ3 : ∀ f, IsReal (β3 f)) :
    lin (aggD row col val (hidden (aggD row col val (hidden (aggD row col val x) W1 b1 γ2 β2)) W2 b2 γ3 β3)) W3 b3
      = lin (aggEdges row col val
          (hidden (aggEdges row col val (hidden (aggEdges row col val x) W1 b1 γ2 β2)) W2 b2 γ3 β3)) W3 b3 := by
  have h1 := isReal_hidden (isReal_aggEdges row col val hval x hx) hW1 hb1 hγ2 hβ2
  have h2 := isReal_hidden (isReal_aggEdges row col val hval _ h1) hW2 hb2 hγ3 hβ3
  rw [aggD_eq hrow hcol hval hx, aggD_eq hrow hcol hval h1, aggD_eq hrow hcol hval h2]

end Net

end Cert.Spec

end
-- ==== Proof.BridgeCore.lean ====
import proofs.«418163_j13657996001620_2_alg».proof.Proof.Layers
import Idealize.ShloMosaic.Lib.ValueIdx

noncomputable section

namespace Cert.Bridge

open Idealize.ShloMosaic Idealize.ShloMosaic.ValueIdx Cert.Spec

abbrev mat {n d : Nat} (a : (⟨2, ![n, d]⟩ : Shape).Idx → EReal) : Mat n d := fun r j => a (ix2 r j)

abbrev vec {n : Nat} (a : (⟨1, ![n]⟩ : Shape).Idx → EReal) : Fin n → EReal := fun f => a (ix1 f)

abbrev words (a : (⟨1, ![640000]⟩ : Shape).Idx → BitVec 32) : Edge → Int := fun e => (a (ix1 e)).toInt

theorem eq_of_mat_eq {n d : Nat} {a b : (⟨2, ![n, d]⟩ : Shape).Idx → EReal} (h : mat a = mat b) : a = b := by
  funext i
  rw [eq_ix2 i]
  exact congrFun (congrFun h (i 0)) (i 1)

variable {row col : Edge → Int} {val : Edge → EReal} {h : Mat 10000 128}

-- The double sum over the sources of adjacency entry times feature is the dense aggregate by definition.
theorem lin_of_arrays {d : Nat} {W : Mat 128 d} {b : Fin d → EReal}
    {A : (⟨2, ![10240, 10240]⟩ : Shape).Idx → EReal} {H : (⟨2, ![10240, 128]⟩ : Shape).Idx → EReal}
    {Wk : (⟨2, ![128, d]⟩ : Shape).Idx → EReal} {Bk : (⟨2, ![1, d]⟩ : Shape).Idx → EReal}
    (hA : ∀ r k, A (ix2 r k) = adj row col val r k) (hH : ∀ k j, H (ix2 k j) = padRows h k j)
    (hW : ∀ j f, Wk (ix2 j f) = W j f) (hB : ∀ f, Bk (ix2 (0 : Fin 1) f) = b f) (r : Fin 10240) (f : Fin d) :
    lin (fun r j => ∑ k : Fin 10240, A (ix2 r k) * H (ix2 k j)) (fun j f => Wk (ix2 j f))
        (fun f => Bk (ix2 (0 : Fin 1) f)) r f
      = lin (aggDense row col val (padRows h)) W b r f := by
  simp only [lin, aggDense, hA, hH, hW, hB]

-- Normalising the first 10000 rows of the clipped affine map of the dense aggregate is the dense hidden layer.
theorem hidden_of_arrays {W : Mat 128 128} {b γ β : Fin 128 → EReal}
    {y : (⟨2, ![10240, 128]⟩ : Shape).Idx → EReal} {z : (⟨2, ![10000, 128]⟩ : Shape).Idx → EReal}
    (hy : ∀ r f, y (ix2 r f) = max (lin (aggDense row col val (padRows h)) W b r f) 0)
    (hz : ∀ r f, z (ix2 r f) = bnAt (fun (r : Fin 10000) f => y (ix2 (⟨r.val, by omega⟩ : Fin 10240) f)) γ β r f) :
    mat z = hidden (aggD row col val h) W b γ β := by
  funext r f
  simp only [hz, hy]
  rfl

end Cert.Bridge

end
-- ==== Proof.PreFacts.lean ====
import proofs.«418163_j13657996001620_2_alg».proof.Pre_finite_inputs
import Idealize.ShloMosaic.PureOps.Ideal
import Idealize.ShloMosaic.Lib.ReduceAll
import Idealize.ShloMosaic.Lib.ValueIdx
import Idealize.ShloMosaic.Lib.Affine

noncomputable section

namespace Cert.PreFacts

open Idealize.ShloMosaic Idealize.ShloMosaic.ValueIdx
open Cert.Pre_finite_inputs Cert.Pre_finite_inputs.Facts

abbrev AllReal {s : Shape} (x : FVec Ideal s .f32) : Prop := ∀ i, ∃ r : ℝ, x i = (r : EReal)

abbrev InRange (a : IVec S640000 32) : Prop := ∀ e, 0 ≤ (a e).toInt ∧ (a e).toInt < 10000

abbrev finMask {s : Shape} (x : FVec Ideal s .f32) (hb : S_.BroadcastsInDim s (![] : Fin 0 → Fin s.rank)) : IVec s 1 :=
  cmpf .olt (Host.absf x) (broadcastInDim s ![] hb (constant (F := Ideal) S_ .f32 0x7F800000#32))

-- |x| = max x (−x) lies strictly below +∞ exactly when x is neither infinity.
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have ht : Ideal.ofBits .f32 0x7F800000#32 = (⊤ : EReal) := by simp [Ideal.ofBits, Ideal.ieee]
  change BitVec.ofBool (decide (max x (-x) < Ideal.ofBits .f32 0x7F800000#32)) = 1#1 at h
  rw [ht] at h
  have h' : max x (-x) < (⊤ : EReal) := by
    by_contra hn
    rw [decide_eq_false hn] at h
    exact absurd h (by decide)
  induction x using EReal.rec with
  | bot => exact absurd h' (by simp)
  | coe r => exact ⟨r, rfl⟩
  | top => exact absurd h' (by simp)

theorem real_of_mask {s : Shape} (x : FVec Ideal s .f32) (hb : S_.BroadcastsInDim s (![] : Fin 0 → Fin s.rank))
    (e : ∀ i, finMask x hb i = 1#1) : AllReal x := fun i => real_of_abs_lt (x i) (e i)

-- A fold by "and" that came out 1 met only 1s.
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (finMask x hb) (constantI S_ 1 1#1) hr hu ix0 = 1#1) : AllReal x :=
  real_of_mask x hb (Host.reduce_andi_all _ _ hr hu ix0 e)

variable [Cert.Pre_finite_inputs.Facts]

theorem part4 (a2 : IVec S640000 32) (v65 : IVec S_ 1) (v67 : IVec S640000 1)
    (h : fn_part4 (F := Ideal) a2 v65 v67 ix0 = 1#1) :
    v65 ix0 = 1#1 ∧ ∀ e, v67 e = 1#1 ∧ (a2 e).toInt < 10000 := by
  dsimp only [fn_part4] at h
  obtain ⟨h1, h2⟩ := IntOp.andi_eq_one.1 h
  refine ⟨h1, fun e => ?_⟩
  obtain ⟨h4, h5⟩ := IntOp.andi_eq_one.1 (Host.reduce_andi_all _ _ _ _ ix0 h2 e)
  exact ⟨h4, IntOp.cmpi_slt.1 h5⟩

theorem part3 (a1 a2 : IVec S640000 32) (a13 : FVec Ideal S40 .f32) (v48 : IVec S_ 1) (v49 v50 : FVec Ideal S128x40 .f32)
    (h : fn_part3 (F := Ideal) a1 a2 a13 v48 v49 v50 ix0 = 1#1) :
    v48 ix0 = 1#1 ∧ (∀ i, cmpf .olt v49 v50 i = 1#1) ∧ AllReal a13 ∧ InRange a1 ∧ InRange a2 := by
  dsimp only [fn_part3] at h
  obtain ⟨h65, hc⟩ := part4 _ _ _ h
  obtain ⟨h58, h64⟩ := IntOp.andi_eq_one.1 h65
  obtain ⟨h53, h57⟩ := IntOp.andi_eq_one.1 h58
  obtain ⟨h48, h52⟩ := IntOp.andi_eq_one.1 h53
  refine ⟨h48, Host.reduce_andi_all _ _ _ _ ix0 h52, real_of_all a13 _ _ _ h57, fun e => ?_, fun e => ?_⟩
  · obtain ⟨hl, hu⟩ := IntOp.andi_eq_one.1 (Host.reduce_andi_all _ _ _ _ ix0 h64 e)
    exact ⟨IntOp.cmpi_sge.1 hl, IntOp.cmpi_slt.1 hu⟩
  · exact ⟨IntOp.cmpi_sge.1 (hc e).1, (hc e).2⟩

theorem part2 (a1 a2 : IVec S640000 32) (a9 a10 a11 : FVec Ideal S128 .f32) (a12 : FVec Ideal S128x40 .f32)
    (a13 : FVec Ideal S40 .f32) (v33 : IVec S_ 1)
    (h : fn_part2 (F := Ideal) a1 a2 a9 a10 a11 a12 a13 v33 ix0 = 1#1) :
    v33 ix0 = 1#1 ∧ AllReal a9 ∧ AllReal a10 ∧ AllReal a11 ∧ AllReal a12 ∧ AllReal a13 ∧ InRange a1 ∧ InRange a2 := by
  dsimp only [fn_part2] at h
  obtain ⟨h48, h12, h13, hr⟩ := part3 _ _ _ _ _ _ h
  obtain ⟨h43, h47⟩ := IntOp.andi_eq_one.1 h48
  obtain ⟨h38, h42⟩ := IntOp.andi_eq_one.1 h43
  obtain ⟨h33, h37⟩ := IntOp.andi_eq_one.1 h38
  exact ⟨h33, real_of_all a9 _ _ _ h37, real_of_all a10 _ _ _ h42, real_of_all a11 _ _ _ h47,
    real_of_mask a12 _ h12, h13, hr⟩

theorem part1 (a1 a2 : IVec S640000 32) (a6 a7 : FVec Ideal S128 .f32) (a8 : FVec Ideal S128x128 .f32)
    (a9 a10 a11 : FVec Ideal S128 .f32) (a12 : FVec Ideal S128x40 .f32) (a13 : FVec Ideal S40 .f32)
    (v13 : IVec S_ 1) (v16 : IVec S128 1)
    (h : fn_part1 (F := Ideal) a1 a2 a6 a7 a8 a9 a10 a11 a12 a13 v13 v16 ix0 = 1#1) :
    v13 ix0 = 1#1 ∧ (∀ i, v16 i = 1#1) ∧ AllReal a6 ∧ AllReal a7 ∧ AllReal a8 ∧ AllReal a9 ∧ AllReal a10
      ∧ AllReal a11 ∧ AllReal a12 ∧ AllReal a13 ∧ InRange a1 ∧ InRange a2 := by
  dsimp only [fn_part1] at h
  obtain ⟨h33, hr⟩ := part2 _ _ _ _ _ _ _ _ h
  obtain ⟨h28, h32⟩ := IntOp.andi_eq_one.1 h33
  obtain ⟨h23, h27⟩ := IntOp.andi_eq_one.1 h28
  obtain ⟨h18, h22⟩ := IntOp.andi_eq_one.1 h23
  obtain ⟨hv13, h17⟩ := IntOp.andi_eq_one.1 h18
  exact ⟨hv13, Host.reduce_andi_all _ _ _ _ ix0 h17, real_of_all a6 _ _ _ h22, real_of_all a7 _ _ _ h27,
    real_of_all a8 _ _ _ h32, hr⟩

-- Each of the fourteen masks holds at every index: the float arguments are real and the edge ends are nodes.
theorem of_pre (a0 : FVec Ideal S10000x128 .f32) (a1 a2 : IVec S640000 32) (a3 : FVec Ideal S640000 .f32)
    (a4 : FVec Ideal S128x128 .f32) (a5 a6 a7 : FVec Ideal S128 .f32) (a8 : FVec Ideal S128x128 .f32)
    (a9 a10 a11 : FVec Ideal S128 .f32) (a12 : FVec Ideal S128x40 .f32) (a13 : FVec Ideal S40 .f32)
    (h : Cert.Pre_finite_inputs.fn (F := Ideal) a0 a1 a2 a3 a4 a5 a6 a7 a8 a9 a10 a11 a12 a13 = (fun _ => 1#1)) :
    AllReal a0 ∧ AllReal a3 ∧ AllReal a4 ∧ AllReal a5 ∧ AllReal a6 ∧ AllReal a7 ∧ AllReal a8 ∧ AllReal a9
      ∧ AllReal a10 ∧ AllReal a11 ∧ AllReal a12 ∧ AllReal a13 ∧ InRange a1 ∧ InRange a2 := by
  have h0 := congrFun h ix0
  dsimp only [fn] at h0
  obtain ⟨hv13, h5, hr⟩ := part1 _ _ _ _ _ _ _ _ _ _ _ _ h0
  obtain ⟨hv8, hv12⟩ := IntOp.andi_eq_one.1 hv13
  obtain ⟨hv3, hv7⟩ := IntOp.andi_eq_one.1 hv8
  exact ⟨real_of_all a0 _ _ _ hv3, real_of_all a3 _ _ _ hv7, real_of_all a4 _ _ _ hv12, real_of_mask a5 _ h5, hr⟩

end Cert.PreFacts

end
-- ==== Proof.RefStages.lean ====
import proofs.«418163_j13657996001620_2_alg».proof.ReferenceIdeal

noncomputable section

namespace Cert.ReferenceIdeal.Stages

open Idealize.ShloMosaic Cert.ReferenceIdeal
open Cert.ReferenceIdeal.Facts₀ Cert.ReferenceIdeal.Facts

variable {F : FTy → Type} [FloatOps F] [Cert.ReferenceIdeal.Facts]

def wrapIdx (idx : IVec S640000 32) : IVec S640000 32 :=
  select (cmpi .slt idx (broadcastInDim S640000 ![] bcast_S_S640000 (constantI S_ 32 0#32)))
    (addi idx (broadcastInDim S640000 ![] bcast_S_S640000 (constantI S_ 32 10000#32)))
    idx

def idxCol (idx : IVec S640000 32) : IVec S640000x1 32 :=
  broadcastInDim S640000x1 ![0] bcast_S640000_S640000x1_0 (wrapIdx idx)

def idxOk (idx : IVec S640000 32) : IVec S640000 1 :=
  Host.reduce IntOp.andi
    (andi
      (cmpi .sge (idxCol idx) (broadcastInDim S640000x1 ![] bcast_S_S640000x1 (constantI S_ 32 0#32)))
      (cmpi .sle (idxCol idx)
        (broadcastInDim S640000x1 ![0, 1] bcast_S1x1_S640000x1_0_1
          (broadcastInDim S1x1 ![1] bcast_S1_S1x1_1 (constantI S1 32 9999#32)))))
    (constantI S_ 1 1#1) reducesTo_S640000x1_S640000_d1 h_S_

def takeStage (h : FVec F S10000x128 .f32) (idx : IVec S640000 32) : FVec F S640000x128 .f32 :=
  select (broadcastInDim S640000x128 ![0] bcast_S640000_S640000x128_0 (idxOk idx))
    (Host.gather gather_S10000x128_S640000x1_S640000x128_1_0_n_n_0_1_1128 h (idxCol idx))
    (broadcastInDim S640000x128 ![] bcast_S_S640000x128 (constant (F := F) S_ .f32 0x7FC00000#32))

def msgStage (col : IVec S640000 32) (val : FVec F S640000 .f32) (h : FVec F S10000x128 .f32) :
    FVec F S640000x128 .f32 :=
  mulf
    (broadcastInDim S640000x128 ![0, 1] bcast_S640000x1_S640000x128_0_1
      (broadcastInDim S640000x1 ![0] bcast_S640000_S640000x1_0 val))
    (takeStage h col)

def aggStage (row col : IVec S640000 32) (val : FVec F S640000 .f32) (h : FVec F S10000x128 .f32) :
    FVec F S10000x128 .f32 :=
  Host.scatterAdd scatter_S10000x128_S640000x1_S640000x128_1_0_0_1
    (broadcastInDim S10000x128 ![] bcast_S_S10000x128 (constant (F := F) S_ .f32 0x00000000#32))
    (broadcastInDim S640000x1 ![0] bcast_S640000_S640000x1_0 row)
    (msgStage col val h)

def linStage (h : FVec F S10000x128 .f32) (W : FVec F S128x128 .f32) (b : FVec F S128 .f32) :
    FVec F S10000x128 .f32 :=
  addf (Host.dotGeneral dot_S10000x128_S128x128_S10000x128_1_0_0_1_n_n none h W)
    (broadcastInDim S10000x128 ![0, 1] bcast_S1x128_S10000x128_0_1
      (broadcastInDim S1x128 ![1] bcast_S128_S1x128_1 b))

def linStage3 (h : FVec F S10000x128 .f32) (W : FVec F S128x40 .f32) (b : FVec F S40 .f32) :
    FVec F S10000x40 .f32 :=
  addf (Host.dotGeneral dot_S10000x128_S128x40_S10000x40_1_0_0_1_n_n none h W)
    (broadcastInDim S10000x40 ![0, 1] bcast_S1x40_S10000x40_0_1
      (broadcastInDim S1x40 ![1] bcast_S40_S1x40_1 b))

def reluStage (x : FVec F S10000x128 .f32) : FVec F S10000x128 .f32 :=
  maximumf x (broadcastInDim S10000x128 ![] bcast_S_S10000x128 (constant (F := F) S_ .f32 0x00000000#32))

def rowsOf {α : Type} (v : S128.Idx → α) : S10000x128.Idx → α :=
  broadcastInDim S10000x128 ![0, 1] bcast_S1x128_S10000x128_0_1
    (broadcastInDim S1x128 ![1] bcast_S128_S1x128_1 v)

def bnMean (y : FVec F S10000x128 .f32) : FVec F S128 .f32 :=
  Host.divf
    (Host.reduceAdd y (constant (F := F) S_ .f32 0x00000000#32) reducesTo_S10000x128_S128_d0 h_S_)
    (broadcastInDim S128 ![] bcast_S_S128 (constant (F := F) S_ .f32 0x461C4000#32))

def bnCentered (y : FVec F S10000x128 .f32) : FVec F S10000x128 .f32 :=
  subf y (rowsOf (bnMean y))

def bnVar (y : FVec F S10000x128 .f32) : FVec F S128 .f32 :=
  Host.divf
    (Host.reduceAdd (mulf (bnCentered y) (bnCentered y)) (constant (F := F) S_ .f32 0x00000000#32)
      reducesTo_S10000x128_S128_d0 h_S_)
    (broadcastInDim S128 ![] bcast_S_S128 (constant (F := F) S_ .f32 0x461C4000#32))

def bnScale (y : FVec F S10000x128 .f32) : FVec F S128 .f32 :=
  Host.rsqrt (addf (bnVar y) (broadcastInDim S128 ![] bcast_S_S128 (constant (F := F) S_ .f32 0x3727C5AC#32)))

def bnStage (y : FVec F S10000x128 .f32) (gamma beta : FVec F S128 .f32) : FVec F S10000x128 .f32 :=
  addf (mulf (mulf (rowsOf gamma) (bnCentered y)) (rowsOf (bnScale y))) (rowsOf beta)

def colsOf {α : Type} (v : S10000.Idx → α) : S10000x40.Idx → α :=
  broadcastInDim S10000x40 ![0, 1] bcast_S10000x1_S10000x40_0_1
    (broadcastInDim S10000x1 ![0] bcast_S10000_S10000x1_0 v)

def lsmMax (x : FVec F S10000x40 .f32) : FVec F S10000 .f32 :=
  maximumf (broadcastInDim S10000 ![] bcast_S_S10000 (constant (F := F) S_ .f32 0xFF800000#32))
    (Host.reduce FloatOps.maximumf x (constant (F := F) S_ .f32 0xFF800000#32) reducesTo_S10000x40_S10000_d1 h_S_)

def lsmShifted (x : FVec F S10000x40 .f32) : FVec F S10000x40 .f32 :=
  subf x (colsOf (lsmMax x))

def lsmLogSum (x : FVec F S10000x40 .f32) : FVec F S10000x1 .f32 :=
  Host.log
    (broadcastInDim S10000x1 ![0] bcast_S10000_S10000x1_0
      (Host.reduceAdd (Host.exp (lsmShifted x)) (constant (F := F) S_ .f32 0x00000000#32)
        reducesTo_S10000x40_S10000_d1 h_S_))

def logSoftmaxStage (x : FVec F S10000x40 .f32) : FVec F S10000x40 .f32 :=
  subf (lsmShifted x) (broadcastInDim S10000x40 ![0, 1] bcast_S10000x1_S10000x40_0_1 (lsmLogSum x))

def refValue (x : FVec F S10000x128 .f32) (row col : IVec S640000 32) (val : FVec F S640000 .f32)
    (W1 : FVec F S128x128 .f32) (b1 gamma2 beta2 : FVec F S128 .f32)
    (W2 : FVec F S128x128 .f32) (b2 gamma3 beta3 : FVec F S128 .f32)
    (W3 : FVec F S128x40 .f32) (b3 : FVec F S40 .f32) : FVec F S10000x40 .f32 :=
  logSoftmaxStage
    (linStage3
      (aggStage row col val
        (bnStage (reluStage (linStage (aggStage row col val
          (bnStage (reluStage (linStage (aggStage row col val x) W1 b1)) gamma2 beta2)) W2 b2)) gamma3 beta3))
      W3 b3)

end Cert.ReferenceIdeal.Stages

end
-- ==== Proof.LibRowOps.lean ====
import Idealize.ShloMosaic.PureOps.Ideal
import Idealize.ShloMosaic.Lib.ValueIdx

noncomputable section

namespace Cert.Lib.RowOps

open Idealize.ShloMosaic Idealize.ShloMosaic.ValueIdx

abbrev scat2 (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

abbrev gath2 (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

-- An update lands on the operand index whose every coordinate is the start plus the window coordinate, when that is in range.
private theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    refine ⟨?_, fun hh => funext fun a => Fin.ext ?_⟩
    · rintro rfl a
      exact (Int.toNat_of_nonneg (h a).1).symm
    · simp only [hh a, Int.toNat_natCast]
  · refine ⟨nofun, fun hh => (h fun a => ?_).elim⟩
    rw [hh a]
    exact ⟨Int.natCast_nonneg _, by exact_mod_cast (i a).isLt⟩

section Scat2
variable {N D E w : Nat} (wf : ScatterDims.WF ⟨2, ![N, D]⟩ ⟨2, ![E, 1]⟩ ⟨2, ![E, D]⟩ [1] [0] [0] 1)
  (j : (⟨2, ![E, D]⟩ : Shape).Idx) (idx : IVec ⟨2, ![E, 1]⟩ w)

private theorem scat2_start0 : (scat2 N D E wf).start j idx 0 = (idx (ix2 (j 0) (0 : Fin 1))).toInt := by
  unfold ScatterDims.start
  rw [dif_pos (show (0 : Fin 2) ∈ (scat2 N D E wf).scatterDimsToOperandDims from List.mem_singleton.mpr rfl)]
  have hsi : (scat2 N D E wf).siIdx j ⟨List.idxOf (0 : Fin 2) (scat2 N D E wf).scatterDimsToOperandDims,
      List.idxOf_lt_length_iff.2 (List.mem_singleton.mpr rfl)⟩ = ix2 (j 0) (0 : Fin 1) :=
    funext (Fin.forall_fin_two.mpr ⟨Fin.ext rfl, Fin.ext rfl⟩)
  rw [hsi]
  rfl

private theorem scat2_start1 : (scat2 N D E wf).start j idx 1 = 0 := by
  unfold ScatterDims.start
  rw [dif_neg (show ¬ (1 : Fin 2) ∈ (scat2 N D E wf).scatterDimsToOperandDims by simp)]

private theorem scat2_window0 : (scat2 N D E wf).window j 0 = 0 := by
  unfold ScatterDims.window
  rw [dif_neg (show ¬ (0 : Fin 2) ∈ (scat2 N D E wf).sKept by simp [ScatterDims.sKept, Shape.kept])]

private theorem scat2_window1 : (scat2 N D E wf).window j 1 = (j 1).val := by
  unfold ScatterDims.window
  rw [dif_pos (show (1 : Fin 2) ∈ (scat2 N D E wf).sKept by simp [ScatterDims.sKept, Shape.kept])]
  rfl

private theorem scat2_lands (e : Fin E) (c' : Fin D) (n : Fin N) (c : Fin D) :
    (scat2 N D E wf).resultIdx? (ix2 e c') idx = some (ix2 n c)
      ↔ (idx (ix2 e (0 : Fin 1))).toInt = (n.val : Int) ∧ c' = c := by
  rw [resultIdx?_eq_some_iff, Fin.forall_fin_two, scat2_start0, scat2_window0, scat2_start1, scat2_window1]
  show (idx (ix2 e (0 : Fin 1))).toInt + ((0 : Nat) : Int) = (n.val : Int) ∧ (0 : Int) + ((c'.val : Nat) : Int) = (c.val : Int) ↔ _
  rw [Nat.cast_zero, add_zero, zero_add, Nat.cast_inj, Fin.val_inj]

end Scat2

theorem scat2_apply {N D E w : Nat} (wf) (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd (scat2 N D E wf) x idx upd (ix2 n c)
      = x (ix2 n c) + ∑ e ∈ Finset.univ.filter (fun e : Fin E => (idx (ix2 e (0 : Fin 1))).toInt = (n.val : Int)), upd (ix2 e c) := by
  unfold Ideal.hostScatterAdd
  congr 1
  rw [Finset.sum_filter, Finset.sum_filter, sum_idx2]
  refine Finset.sum_congr rfl fun e _ => ?_
  simp only [scat2_lands, ite_and, Finset.sum_ite_eq', Finset.mem_univ, if_true]
  split_ifs <;> simp

theorem gath2_apply {α : Type} {N D E w : Nat} (hN : 0 < N) (wf) (x : (⟨2, ![N, D]⟩ : Shape).Idx → α) (idx : IVec ⟨2, ![E, 1]⟩ w)
    (e : Fin E) (c : Fin D) :
    Host.gather (gath2 N D E wf) x idx (ix2 e c)
      = x (ix2 ⟨min (idx (ix2 e (0 : Fin 1))).toInt.toNat (N - 1), by omega⟩ c) := by
  unfold Host.gather
  refine congrArg x (funext (Fin.forall_fin_two.mpr ⟨Fin.ext ?_, Fin.ext ?_⟩))
  · show (gath2 N D E wf).start (ix2 e c) idx 0 + (gath2 N D E wf).batchCoord (ix2 e c) 0 + (gath2 N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gath2 N D E wf).startIndexMap from List.mem_singleton.mpr rfl)]
    have hsi : (gath2 N D E wf).siIdx (ix2 e c) ⟨List.idxOf (0 : Fin 2) (gath2 N D E wf).startIndexMap,
        List.idxOf_lt_length_iff.2 (List.mem_singleton.mpr rfl)⟩ = ix2 e (0 : Fin 1) :=
      funext (Fin.forall_fin_two.mpr ⟨Fin.ext rfl, Fin.ext rfl⟩)
    rw [hsi]
    rfl
  · show (gath2 N D E wf).start (ix2 e c) idx 1 + (gath2 N D E wf).batchCoord (ix2 e c) 1 + (gath2 N D E wf).offCoord (ix2 e c) 1 = _
    rw [GatherDims.batchCoord_eq_zero _ _ _ List.not_mem_nil]
    unfold GatherDims.start
    rw [dif_neg (show ¬ (1 : Fin 2) ∈ (gath2 N D E wf).startIndexMap by simp)]
    unfold GatherDims.offCoord
    rw [dif_pos (show (1 : Fin 2) ∈ (gath2 N D E wf).sKept from (GatherDims.mem_sKept _ _).mpr ⟨by simp, List.not_mem_nil⟩)]
    simp only [Nat.zero_add]
    rfl

end Cert.Lib.RowOps

end
-- ==== Proof.RefValue.lean ====
import proofs.«418163_j13657996001620_2_alg».proof.Proof.RefStages
import proofs.«418163_j13657996001620_2_alg».proof.Proof.Spec
import proofs.«418163_j13657996001620_2_alg».proof.Proof.LibRowOps
import Idealize.ShloMosaic.Lib.IdealHost
import Idealize.ShloMosaic.Lib.Pipeline.Value
import Idealize.ShloMosaic.Lib.ReduceAll
import Idealize.ShloMosaic.Lib.StackMember

noncomputable section

namespace Cert.ReferenceIdeal.RefValue

open Idealize.ShloMosaic Idealize.ShloMosaic.ValueIdx Cert.ReferenceIdeal Cert.ReferenceIdeal.Stages
open Cert.ReferenceIdeal.Facts₀ Cert.ReferenceIdeal.Facts Cert.Lib.RowOps
open scoped BigOperators

variable [Cert.ReferenceIdeal.Facts]

theorem rowsOf_apply {α : Type} (v : S128.Idx → α) (r : Fin 10000) (f : Fin 128) :
    rowsOf v (ix2 r f) = v (ix1 f) :=
  (broadcastInDim_apply _ _ _ (ix2 r f) (ix2 (0 : Fin 1) f) (Fin.forall_fin_two.mpr ⟨rfl, rfl⟩)).trans
    (broadcastInDim_apply _ _ _ _ (ix1 f) (Fin.forall_fin_one.mpr rfl))

theorem reluStage_apply (x : FVec Ideal S10000x128 .f32) (i : S10000x128.Idx) :
    reluStage x i = max (x i) 0 := by
  unfold reluStage
  rw [maximumf_apply, broadcastInDim_scalar_apply, constant_apply, Ideal.ofBits_zero_f32]

section BN
variable (y : FVec Ideal S10000x128 .f32) (gamma beta : FVec Ideal S128 .f32) (r : Fin 10000) (f : Fin 128)

theorem colSum_apply :
    Host.reduceAdd y (constant (F := Ideal) S_ .f32 0x00000000#32) reducesTo_S10000x128_S128_d0 h_S_ (ix1 f)
      = ∑ r : Fin 10000, y (ix2 r f) := by
  have h : S10000x128.Reduces [0] S128 := by decide
  rw [hostReduceAdd_apply, Ideal.hostReduceAdd_single _ h, constant_apply, Ideal.ofBits_zero_f32, zero_add]
  exact Finset.sum_congr rfl fun k _ => congrArg y (funext (Fin.forall_fin_two.mpr ⟨rfl, rfl⟩))

theorem bnStage_apply :
    bnStage y gamma beta (ix2 r f)
      = Cert.Spec.bnAt (fun r f => y (ix2 r f)) (fun f => gamma (ix1 f)) (fun f => beta (ix1 f)) r f := by
  unfold bnStage bnScale bnVar bnCentered bnMean Cert.Spec.bnAt Cert.Spec.colVar Cert.Spec.colMean
  simp only [addf_apply, mulf_apply, subf_apply, rowsOf_apply, hostDivf_apply, colSum_apply, broadcastInDim_scalar_apply,
    constant_apply, show ∀ v : FVec Ideal S128 .f32, Host.rsqrt v (ix1 f) = Ideal.rsqrt (v (ix1 f)) from fun _ => rfl]
  rfl

end BN

theorem linStage_apply (h : FVec Ideal S10000x128 .f32) (W : FVec Ideal S128x128 .f32) (b : FVec Ideal S128 .f32)
    (r : Fin 10000) (f : Fin 128) :
    linStage h W b (ix2 r f)
      = Cert.Spec.lin (fun r j => h (ix2 r j)) (fun j f => W (ix2 j f)) (fun f => b (ix1 f)) r f := by
  unfold linStage Cert.Spec.lin
  rw [addf_apply, show dot_S10000x128_S128x128_S10000x128_1_0_0_1_n_n = DotDims.plain 10000 128 128 from rfl,
    StackMember.dotGeneral_plain_apply]
  exact congrArg (fun t => _ + t) (rowsOf_apply b r f)

theorem linStage3_apply (h : FVec Ideal S10000x128 .f32) (W : FVec Ideal S128x40 .f32) (b : FVec Ideal S40 .f32)
    (r : Fin 10000) (f : Fin 40) :
    linStage3 h W b (ix2 r f)
      = Cert.Spec.lin (fun r j => h (ix2 r j)) (fun j f => W (ix2 j f)) (fun f => b (ix1 f)) r f := by
  unfold linStage3 Cert.Spec.lin
  rw [addf_apply, show dot_S10000x128_S128x40_S10000x40_1_0_0_1_n_n = DotDims.plain 10000 128 40 from rfl,
    StackMember.dotGeneral_plain_apply]
  exact congrArg (fun t => _ + t) ((broadcastInDim_apply _ _ _ (ix2 r f) (ix2 (0 : Fin 1) f) (Fin.forall_fin_two.mpr ⟨rfl, rfl⟩)).trans
    (broadcastInDim_apply _ _ _ _ (ix1 f) (Fin.forall_fin_one.mpr rfl)))

theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

theorem hostScatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

theorem asCol_apply {α : Type} (v : S640000.Idx → α) (e : Fin 640000) (z : Fin 1) :
    broadcastInDim S640000x1 ![0] bcast_S640000_S640000x1_0 v (ix2 e z) = v (ix1 e) :=
  broadcastInDim_apply _ _ _ (ix2 e z) (ix1 e) (Fin.forall_fin_one.mpr rfl)

section Agg
variable (row col : IVec S640000 32) (val : FVec Ideal S640000 .f32) (h : FVec Ideal S10000x128 .f32)
  (hcol : ∀ e : Fin 640000, 0 ≤ (col (ix1 e)).toInt ∧ (col (ix1 e)).toInt < 10000) (e : Fin 640000) (c : Fin 128)
include hcol

-- A source index that is a node is kept by the wrap of negative indices.
theorem idxCol_apply (z : Fin 1) : idxCol col (ix2 e z) = col (ix1 e) := by
  unfold idxCol wrapIdx
  rw [asCol_apply, select_apply]
  have hm : cmpi .slt col (broadcastInDim S640000 ![] bcast_S_S640000 (constantI S_ 32 0#32)) (ix1 e) = 0#1 :=
    eq_zero_of_ne_one fun hh => absurd (IntOp.cmpi_slt.mp hh) (not_lt.mpr (hcol e).1)
  rw [hm, select_zero]

-- Every source index a node: the range test passes everywhere.
theorem idxOk_eq_one (j : S640000.Idx) : idxOk col j = 1#1 := by
  unfold idxOk
  rw [Host.reduce_eq_foldl]
  refine foldl_andi_one _ _ fun i _ => ?_
  obtain ⟨e, z, rfl⟩ : ∃ (e : Fin 640000) (z : Fin 1), i = ix2 e z := ⟨i 0, i 1, eq_ix2 i⟩
  refine IntOp.andi_eq_one.mpr ⟨IntOp.cmpi_sge.mpr ?_, IntOp.cmpi_sle.mpr ?_⟩ <;> rw [idxCol_apply col hcol e z]
  · exact (hcol e).1
  · exact Int.le_of_lt_add_one (hcol e).2

-- The gathered row is the feature row of the edge's source node: the filler is never selected.
theorem takeStage_apply :
    takeStage h col (ix2 e c) = h (ix2 ⟨min (col (ix1 e)).toInt.toNat 9999, by omega⟩ c) := by
  unfold takeStage
  rw [select_apply, broadcastInDim_apply _ _ _ (ix2 e c) (ix1 e) (by exact Fin.forall_fin_one.mpr rfl), idxOk_eq_one col hcol, select_one,
    show gather_S10000x128_S640000x1_S640000x128_1_0_n_n_0_1_1128 = gath2 10000 128 640000
      gather_S10000x128_S640000x1_S640000x128_1_0_n_n_0_1_1128_wf from rfl, gath2_apply (by norm_num)]
  refine congrArg (fun k => h (ix2 k c)) (Fin.ext ?_)
  show min (idxCol col (ix2 e 0)).toInt.toNat (10000 - 1) = min (col (ix1 e)).toInt.toNat 9999
  rw [idxCol_apply col hcol e 0]

theorem msgStage_apply :
    msgStage col val h (ix2 e c) = val (ix1 e) * h (ix2 ⟨min (col (ix1 e)).toInt.toNat 9999, by omega⟩ c) := by
  unfold msgStage
  rw [mulf_apply, takeStage_apply col h hcol, broadcastInDim_apply _ _ _ (ix2 e c) (ix2 e (0 : Fin 1)) (by exact Fin.forall_fin_two.mpr ⟨rfl, rfl⟩),
    asCol_apply]

theorem aggStage_apply (r : Fin 10000) (j : Fin 128) :
    aggStage row col val h (ix2 r j)
      = Cert.Spec.aggEdges (fun e => (row (ix1 e)).toInt) (fun e => (col (ix1 e)).toInt) (fun e => val (ix1 e))
          (fun r j => h (ix2 r j)) r j := by
  unfold aggStage
  rw [hostScatterAdd_ideal, show scatter_S10000x128_S640000x1_S640000x128_1_0_0_1 = scat2 10000 128 640000
    scatter_S10000x128_S640000x1_S640000x128_1_0_0_1_wf from rfl, scat2_apply, broadcastInDim_scalar_apply, constant_apply,
    Ideal.ofBits_zero_f32, zero_add]
  unfold Cert.Spec.aggEdges
  exact Finset.sum_congr (Finset.filter_congr fun e _ => by rw [asCol_apply]) fun e _ => msgStage_apply col val h hcol e j

end Agg

end Cert.ReferenceIdeal.RefValue

end
-- ==== Proof.RefResult.lean ====
import proofs.«418163_j13657996001620_2_alg».proof.Proof.RefStages
import proofs.«418163_j13657996001620_2_alg».proof.Proof.RefRun

noncomputable section

namespace Cert.ReferenceIdeal.RefValue

open Cert.ReferenceIdeal Cert.ReferenceIdeal.Gen Cert.ReferenceIdeal.Stages Cert.ReferenceIdeal.RefRun
open Idealize.ShloMosaic Idealize.ShloMosaic.TcCoe Idealize.SL.Sem Idealize.ShloMosaic.StableHlo

variable {F : FTy → Type} [FloatOps F] (V : Valuation τ sig (Elt F))

theorem agg1_eq : after opsAgg1 V (Proc.devRef .tc main_v6) = aggStage (V (Proc.devRef .tc main_arg1)) (V (Proc.devRef .tc main_arg2)) (V (Proc.devRef .tc main_arg3)) (V (Proc.devRef .tc main_arg0)) := by
  after_results_simp
  rfl

theorem lin1_eq : after opsLin1 V (Proc.devRef .tc main_v11) = reluStage (linStage (V (Proc.devRef .tc main_v6)) (V (Proc.devRef .tc main_arg4)) (V (Proc.devRef .tc main_arg5))) := by
  after_results_simp
  rfl

theorem bn1_eq : after opsBN1 V (Proc.devRef .tc main_v36) = bnStage (V (Proc.devRef .tc main_v11)) (V (Proc.devRef .tc main_arg6)) (V (Proc.devRef .tc main_arg7)) := by
  after_results_simp
  rfl

theorem agg2_eq : after opsAgg2 V (Proc.devRef .tc main_v43) = aggStage (V (Proc.devRef .tc main_arg1)) (V (Proc.devRef .tc main_arg2)) (V (Proc.devRef .tc main_arg3)) (V (Proc.devRef .tc main_v36)) := by
  after_results_simp
  rfl

theorem lin2_eq : after opsLin2 V (Proc.devRef .tc main_v48) = reluStage (linStage (V (Proc.devRef .tc main_v43)) (V (Proc.devRef .tc main_arg8)) (V (Proc.devRef .tc main_arg9))) := by
  after_results_simp
  rfl

theorem bn2_eq : after opsBN2 V (Proc.devRef .tc main_v73) = bnStage (V (Proc.devRef .tc main_v48)) (V (Proc.devRef .tc main_arg10)) (V (Proc.devRef .tc main_arg11)) := by
  after_results_simp
  rfl

theorem agg3_eq : after opsAgg3 V (Proc.devRef .tc main_v80) = aggStage (V (Proc.devRef .tc main_arg1)) (V (Proc.devRef .tc main_arg2)) (V (Proc.devRef .tc main_arg3)) (V (Proc.devRef .tc main_v73)) := by
  after_results_simp
  rfl

theorem lin3_eq : after opsLin3 V (Proc.devRef .tc main_v84) = linStage3 (V (Proc.devRef .tc main_v80)) (V (Proc.devRef .tc main_arg12)) (V (Proc.devRef .tc main_arg13)) := by
  after_results_simp
  rfl

theorem lsm_eq : after opsLogSoftmax V (Proc.devRef .tc main_v85) = logSoftmaxStage (V (Proc.devRef .tc main_v84)) := by
  after_results_simp
  rfl

-- Each stretch's last buffer is its stage of what it read; an argument read later is, by the frames, what it was at the start.
theorem result_eq :
    after ops V (Proc.devRef .tc main_v85)
      = refValue (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  obtain ⟨s1, s2, s3, s4, s5, s6, s7, -, -⟩ := st_all (F := F)
  rw [after_ops, lsm_eq, lin3_eq, agg3_eq, bn2_eq, lin2_eq, agg2_eq, bn1_eq, lin1_eq, agg1_eq]
  simp (disch := decide) only [s1.frame, s2.frame, s3.frame, s4.frame, s5.frame, s6.frame, s7.frame]
  rfl

end Cert.ReferenceIdeal.RefValue

end
-- ==== Proof.KernelIdeal.Region0Pieces.lean ====
import proofs.«418163_j13657996001620_2_alg».proof.Proof.KernelIdeal.Region0
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.HandValue

open Cert.KernelIdeal Cert.KernelIdeal.Gen Cert.KernelIdeal.Hand

theorem hz0 : (![0, 0] : Fin 2 → Nat) = fun _ => 0 := funext fun a => by fin_cases a <;> rfl

variable {F : FTy → Type} [FloatOps F]

section Cases

variable (c : Dev nD) (i : grid0.Coords)
  (arg2 : Memref sig .tc .vmem S1280x2560 .bf16) (harg2 : arg2.IsWhole) (arg3 : Memref sig .tc .vmem S2560x128 .bf16) (harg3 : arg3.IsWhole)
  (arg4 : Memref sig .tc .vmem S128x128 .bf16) (harg4 : arg4.IsWhole) (arg5 : Memref sig .tc .vmem S1x128 .f32) (harg5 : arg5.IsWhole)
  (arg6 : Memref sig .tc .vmem S1280x128 .bf16) (harg6 : arg6.IsWhole) (arg7 : Memref sig .tc .vmem S1280x128 .f32) (harg7 : arg7.IsWhole)

section
variable (hc0 : cond0_0 i) (hc1 : ¬cond0_1 i) (x0 : Vec F S1280x2560 .bf16) (x1 : Vec F S2560x128 .bf16) (x2 : Vec F S128x128 .bf16) (x3 : Vec F S1x128 .f32)

/-- A first step leaves in the accumulator zero updated once. -/
theorem outs0_A_snd : (outs0_A c i arg2 harg2 arg3 harg3 arg4 harg4 arg5 harg5 arg6 harg6 arg7 harg7 hc0 hc1 x0 x1 x2 x3).2 = k0_pay2 (k0_pay1 (F := F)) x0 x1 := by
  unfold outs0_A
  dsimp only
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1280x128) hz0, View.readCov_unit_zero (S := S1280x128) _ hz0]
  simp only [View.readAt_eq_ld, harg2.read_unread, harg3.read_unread, harg4.read_unread, harg5.read_unread, harg7.read_unread,
    View.ld_unit_zero (S := S1280x128) hz0, View.ld_unit_zero (S := S1280x2560) hz0, View.ld_unit_zero (S := S2560x128) hz0,
    View.ld_unit_zero (S := S128x128) hz0, View.ld_unit_zero (S := S1x128) hz0]

end

section
variable (hc0 : ¬cond0_0 i) (hc1 : ¬cond0_1 i) (x0 : Vec F S1280x2560 .bf16) (x1 : Vec F S2560x128 .bf16) (x2 : Vec F S128x128 .bf16) (x3 : Vec F S1x128 .f32) (xs0 : Vec F S1280x128 .f32)

/-- A middle step leaves in the accumulator what it held, updated. -/
theorem outs0_B_snd : (outs0_B c i arg2 harg2 arg3 harg3 arg4 harg4 arg5 harg5 arg6 harg6 arg7 harg7 hc0 hc1 x0 x1 x2 x3 xs0).2 = k0_pay2 xs0 x0 x1 := by
  unfold outs0_B
  dsimp only
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz0]
  simp only [View.readAt_eq_ld, harg2.read_unread, harg3.read_unread, harg4.read_unread, harg5.read_unread, harg7.read_unread,
    View.ld_unit_zero (S := S1280x128) hz0, View.ld_unit_zero (S := S1280x2560) hz0, View.ld_unit_zero (S := S2560x128) hz0,
    View.ld_unit_zero (S := S128x128) hz0, View.ld_unit_zero (S := S1x128) hz0]

end

section
variable (hc0 : ¬cond0_0 i) (hc1 : cond0_1 i) (x0 : Vec F S1280x2560 .bf16) (x1 : Vec F S2560x128 .bf16) (x2 : Vec F S128x128 .bf16) (x3 : Vec F S1x128 .f32) (xs0 : Vec F S1280x128 .f32)

/-- A last step does the same, and leaves in the output block the epilogue of the updated accumulator. -/
theorem outs0_C_snd : (outs0_C c i arg2 harg2 arg3 harg3 arg4 harg4 arg5 harg5 arg6 harg6 arg7 harg7 hc0 hc1 x0 x1 x2 x3 xs0).2 = k0_pay2 xs0 x0 x1 := by
  unfold outs0_C
  dsimp only
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz0]
  simp only [View.readAt_eq_ld, harg2.read_unread, harg3.read_unread, harg4.read_unread, harg5.read_unread, harg7.read_unread,
    View.ld_unit_zero (S := S1280x128) hz0, View.ld_unit_zero (S := S1280x2560) hz0, View.ld_unit_zero (S := S2560x128) hz0,
    View.ld_unit_zero (S := S128x128) hz0, View.ld_unit_zero (S := S1x128) hz0]

theorem outs0_C_fst : (outs0_C c i arg2 harg2 arg3 harg3 arg4 harg4 arg5 harg5 arg6 harg6 arg7 harg7 hc0 hc1 x0 x1 x2 x3 xs0).1 = k0_pay3 (k0_pay2 xs0 x0 x1) x2 x3 := by
  unfold outs0_C
  dsimp only
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz0]
  simp only [View.readCov_unit_zero (S := S1280x128) _ hz0, View.readAt_eq_ld, harg2.read_unread, harg3.read_unread, harg4.read_unread, harg5.read_unread, harg7.read_unread,
    View.ld_unit_zero (S := S1280x128) hz0, View.ld_unit_zero (S := S1280x2560) hz0, View.ld_unit_zero (S := S2560x128) hz0,
    View.ld_unit_zero (S := S128x128) hz0, View.ld_unit_zero (S := S1x128) hz0]

end

end Cases

section Points

variable (V : (c : Dev nD) → (b : Ref sig .tc) → Buf (Elt F) ((c : Thread nD τ).loc b)) (c : Dev nD) (t : Fin cfg0.N)

theorem acc0_first (h0 : t.val % 4 = 0) :
    (outsAt0 V c t.val t.isLt).2 = k0_pay2 (k0_pay1 (F := F)) (iblk0 V c 0 t) (iblk0 V c 1 t) := by
  rw [outsAt0_A V c t h0 (by omega)]; unfold stepA0
  exact outs0_A_snd ..

theorem acc0_next (h0 : ¬t.val % 4 = 0) :
    (outsAt0 V c t.val t.isLt).2
      = k0_pay2 (outsAt0 V c (t.val - 1) (Nat.lt_of_le_of_lt (Nat.sub_le _ _) t.isLt)).2 (iblk0 V c 0 t) (iblk0 V c 1 t) := by
  by_cases h1 : t.val % 4 = 3
  · rw [outsAt0_C V c t h0 h1]; unfold stepC0
    exact outs0_C_snd ..
  · rw [outsAt0_B V c t h0 h1]; unfold stepB0
    exact outs0_B_snd ..

theorem out0_last (h1 : t.val % 4 = 3) :
    (outsAt0 V c t.val t.isLt).1 = k0_pay3 (outsAt0 V c t.val t.isLt).2 (iblk0 V c 2 t) (iblk0 V c 3 t) := by
  rw [outsAt0_C V c t (by omega) h1]; unfold stepC0
  exact Eq.trans (outs0_C_fst ..) (congrArg (fun s => k0_pay3 s (iblk0 V c 2 t) (iblk0 V c 3 t)) (Eq.symm (outs0_C_snd ..)))

end Points

theorem idx_facts0 : ∀ t : Fin cfg0.N, win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 4 ∧ win0_4.index t (1 : Fin 2) = 0 :=
  (by decide +kernel : ∀ t : Fin grid0.N, _)

end Cert.KernelIdeal.HandValue

end
-- ==== Proof.KernelIdeal.PayOps.lean ====
import proofs.«418163_j13657996001620_2_alg».proof.Proof.Gen.KernelIdeal.Skeleton
import Idealize.ShloMosaic.Lib.ValueIdx
import Idealize.ShloMosaic.Lib.ValueLayout
import Idealize.ShloMosaic.PureOps.Ideal.Laws
import Idealize.ShloMosaic.Lib.StackMember

noncomputable section

open Idealize.ShloMosaic Idealize.ShloMosaic.ValueIdx
open scoped BigOperators

namespace Cert.KernelIdeal.HandValue

open Cert.KernelIdeal Cert.KernelIdeal.Gen

-- Both products are plain matrix products accumulated into zero: the sum over the contracted coordinate.
theorem blkProd_apply (a : FVec Ideal S1280x2560 .bf16) (h : FVec Ideal S2560x128 .bf16) (x : Fin 1280) (j : Fin 128) :
    matmul dot_S1280x2560_S2560x128_S1280x128_1_0_0_1_n_n none a h (constant (F := Ideal) S1280x128 .f32 0x00000000#32) (ix2 x j)
      = ∑ y : Fin 2560, a (ix2 x y) * h (ix2 y j) :=
  (congrFun (matmul_zero_eq_dotGeneral _ none a h) (ix2 x j)).trans
    (StackMember.dotGeneral_plain_apply (m := 1280) (n := 128) none a h x j)

theorem wtProd_apply (acc : FVec Ideal S1280x128 .bf16) (w : FVec Ideal S128x128 .bf16) (x : Fin 1280) (f : Fin 128) :
    matmul dot_S1280x128_S128x128_S1280x128_1_0_0_1_n_n none acc w (constant (F := Ideal) S1280x128 .f32 0x00000000#32) (ix2 x f)
      = ∑ j : Fin 128, acc (ix2 x j) * w (ix2 j f) :=
  (congrFun (matmul_zero_eq_dotGeneral _ none acc w) (ix2 x f)).trans
    (StackMember.dotGeneral_plain_apply (m := 1280) (n := 128) none acc w x f)

theorem zeroBlk_apply (i : S1280x128.Idx) :
    shapeCast S1280x128 (broadcast S1280x128 (Scalar.ofBits (F := Ideal) .f32 0x00000000#32)) shapeCasts_S1280x128_S1280x128 i = 0 := by
  rw [shapeCast_self]
  exact Ideal.ofBits_zero_f32

theorem accStep_apply (acc : FVec Ideal S1280x128 .f32) (a : FVec Ideal S1280x2560 .bf16) (h : FVec Ideal S2560x128 .bf16)
    (x : Fin 1280) (j : Fin 128) :
    shapeCast S1280x128 (addf acc (matmul dot_S1280x2560_S2560x128_S1280x128_1_0_0_1_n_n none
        (shapeCast S1280x2560 a shapeCasts_S1280x2560_S1280x2560) (shapeCast S2560x128 h shapeCasts_S2560x128_S2560x128)
        (constant (F := Ideal) S1280x128 .f32 0x00000000#32))) shapeCasts_S1280x128_S1280x128 (ix2 x j)
      = acc (ix2 x j) + ∑ y : Fin 2560, a (ix2 x y) * h (ix2 y j) := by
  rw [shapeCast_self, shapeCast_self, shapeCast_self, addf_apply]
  exact congrArg (acc (ix2 x j) + ·) (blkProd_apply a h x j)

theorem affine_apply (acc : FVec Ideal S1280x128 .f32) (w : FVec Ideal S128x128 .bf16) (b : FVec Ideal S1x128 .f32)
    (x : Fin 1280) (f : Fin 128) :
    addf (matmul dot_S1280x128_S128x128_S1280x128_1_0_0_1_n_n none (truncf .bf16 acc bitsLt_bf16_f32)
        (shapeCast S128x128 w shapeCasts_S128x128_S128x128) (constant (F := Ideal) S1280x128 .f32 0x00000000#32))
      (broadcastTo S1280x128 (shapeCast S1x128 b shapeCasts_S1x128_S1x128) broadcasts_S1x128_S1280x128) (ix2 x f)
      = (∑ j : Fin 128, acc (ix2 x j) * w (ix2 j f)) + b (ix2 (0 : Fin 1) f) := by
  rw [shapeCast_self, shapeCast_self, addf_apply, broadcastTo_1b_ab_apply]
  exact congrArg (· + b (ix2 (0 : Fin 1) f)) (wtProd_apply (truncf .bf16 acc bitsLt_bf16_f32) w x f)

end Cert.KernelIdeal.HandValue

end
-- ==== Proof.KernelIdeal.Region0Pay.lean ====
import proofs.«418163_j13657996001620_2_alg».proof.Proof.KernelIdeal.PayOps

noncomputable section

open Idealize.ShloMosaic Idealize.ShloMosaic.ValueIdx
open scoped BigOperators

namespace Cert.KernelIdeal.HandValue

open Cert.KernelIdeal Cert.KernelIdeal.Gen

theorem k0_pay1_apply (i : S1280x128.Idx) : (k0_pay1 (F := Ideal)) i = 0 := by
  unfold k0_pay1
  exact zeroBlk_apply i

theorem k0_pay2_apply (acc : FVec Ideal S1280x128 .f32) (a : FVec Ideal S1280x2560 .bf16) (h : FVec Ideal S2560x128 .bf16)
    (x : Fin 1280) (j : Fin 128) :
    k0_pay2 (F := Ideal) acc a h (ix2 x j) = acc (ix2 x j) + ∑ y : Fin 2560, a (ix2 x y) * h (ix2 y j) := by
  unfold k0_pay2
  exact accStep_apply acc a h x j

abbrev k0_pay_act (x : EReal) : EReal := max x 0

theorem k0_pay3_apply (acc : FVec Ideal S1280x128 .f32) (w : FVec Ideal S128x128 .bf16) (b : FVec Ideal S1x128 .f32)
    (x : Fin 1280) (f : Fin 128) :
    k0_pay3 (F := Ideal) acc w b (ix2 x f)
      = k0_pay_act ((∑ j : Fin 128, acc (ix2 x j) * w (ix2 j f)) + b (ix2 (0 : Fin 1) f)) := by
  unfold k0_pay3
  show max (addf _ _ (ix2 x f)) (Ideal.ofBits .f32 0x00000000#32) = _
  rw [Ideal.ofBits_zero_f32]
  exact congrArg (max · 0) (affine_apply acc w b x f)

end Cert.KernelIdeal.HandValue

end
-- ==== Proof.KernelIdeal.BlockSum.lean ====
import Idealize.ShloMosaic.Lib.ValueIdx
import Mathlib.Algebra.BigOperators.Fin
import Mathlib.Data.Fintype.BigOperators
import Mathlib.Logic.Equiv.Fin.Basic

noncomputable section

open Idealize.ShloMosaic Idealize.ShloMosaic.ValueIdx
open scoped BigOperators

namespace Cert.KernelIdeal.HandValue

abbrev colAt (k : Fin 4) (y : Fin 2560) : Fin 10240 := ⟨2560 * k.val + y.val, by have := k.isLt; have := y.isLt; omega⟩

variable (A : (⟨2, ![10240, 10240]⟩ : Shape).Idx → EReal) (H : (⟨2, ![10240, 128]⟩ : Shape).Idx → EReal)

def blockTerm (r : Fin 10240) (j : Fin 128) (k : Fin 4) : EReal :=
  ∑ y : Fin 2560, A (ix2 r (colAt k y)) * H (ix2 (colAt k y) j)

def partSum (r : Fin 10240) (j : Fin 128) : ℕ → EReal
  | 0 => blockTerm A H r j 0
  | m + 1 => partSum r j m + blockTerm A H r j ⟨(m + 1) % 4, Nat.mod_lt _ (by decide)⟩

theorem partSum_succ (r : Fin 10240) (j : Fin 128) (m : ℕ) :
    partSum A H r j (m + 1) = partSum A H r j m + blockTerm A H r j ⟨(m + 1) % 4, Nat.mod_lt _ (by decide)⟩ := rfl

theorem sum_cols (f : Fin 10240 → EReal) : ∑ k : Fin 10240, f k = ∑ a : Fin 4, ∑ y : Fin 2560, f (colAt a y) := by
  rw [← Equiv.sum_comp (finProdFinEquiv : Fin 4 × Fin 2560 ≃ Fin 10240) f, Fintype.sum_prod_type]
  refine Finset.sum_congr rfl fun a _ => Finset.sum_congr rfl fun y _ => congrArg f (Fin.ext ?_)
  show y.val + 2560 * a.val = 2560 * a.val + y.val
  omega

theorem partSum_three (r : Fin 10240) (j : Fin 128) :
    partSum A H r j 3 = ∑ k : Fin 10240, A (ix2 r k) * H (ix2 k j) := by
  rw [sum_cols (fun k => A (ix2 r k) * H (ix2 k j)), Fin.sum_univ_four]
  rfl

end Cert.KernelIdeal.HandValue

end
-- ==== Proof.KernelIdeal.Region0Value.lean ====
import proofs.«418163_j13657996001620_2_alg».proof.Proof.KernelIdeal.Region0Pieces
import proofs.«418163_j13657996001620_2_alg».proof.Proof.KernelIdeal.Region0Pay
import proofs.«418163_j13657996001620_2_alg».proof.Proof.KernelIdeal.BlockSum
import proofs.«418163_j13657996001620_2_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.HandValue

open Cert.KernelIdeal Cert.KernelIdeal.Gen Cert.KernelIdeal.Hand

section AtIdeal

variable (V : (c : Dev nD) → (b : Ref sig .tc) → Buf (Elt Ideal) ((c : Thread nD τ).loc b))

abbrev A0 (c : Dev nD) : FVec Ideal S10240x10240 .bf16 := V c main_v15
abbrev H0 (c : Dev nD) : FVec Ideal S10240x128 .bf16 := V c main_v19
abbrev W0 (c : Dev nD) : FVec Ideal S128x128 .bf16 := V c main_v20
abbrev B0 (c : Dev nD) : FVec Ideal S1x128 .f32 := V c main_v21

abbrev Ablk0 (c : Dev nD) (t : Fin cfg0.N) : FVec Ideal S1280x2560 .bf16 := iblk0 V c 0 t
abbrev Hblk0 (c : Dev nD) (t : Fin cfg0.N) : FVec Ideal S2560x128 .bf16 := iblk0 V c 1 t
abbrev Wblk0 (c : Dev nD) (t : Fin cfg0.N) : FVec Ideal S128x128 .bf16 := iblk0 V c 2 t
abbrev Bblk0 (c : Dev nD) (t : Fin cfg0.N) : FVec Ideal S1x128 .f32 := iblk0 V c 3 t

theorem Ablk0_apply (c : Dev nD) (t : Fin cfg0.N) (x : Fin 1280) (y : Fin 2560) (r k : Fin 10240)
    (hr : r.val = 1280 * (t.val / 4) + x.val) (hk : k.val = 2560 * (t.val % 4) + y.val) :
    Ablk0 V c t (ix2 x y) = A0 V c (ix2 r k) := by
  obtain ⟨e0, e1, -⟩ := idx_facts0 t
  refine congrArg (V c main_v15) (funext fun a => Fin.ext ?_)
  match a with
  | ⟨0, _⟩ => show win0_0.index t (0 : Fin 2) * 1280 + 1 * x.val = r.val; omega
  | ⟨1, _⟩ => show win0_0.index t (1 : Fin 2) * 2560 + 1 * y.val = k.val; omega

theorem Hblk0_apply (c : Dev nD) (t : Fin cfg0.N) (y : Fin 2560) (j : Fin 128) (k : Fin 10240)
    (hk : k.val = 2560 * (t.val % 4) + y.val) :
    Hblk0 V c t (ix2 y j) = H0 V c (ix2 k j) := by
  obtain ⟨-, -, e2, e3, -⟩ := idx_facts0 t
  refine congrArg (V c main_v19) (funext fun a => Fin.ext ?_)
  match a with
  | ⟨0, _⟩ => show win0_1.index t (0 : Fin 2) * 2560 + 1 * y.val = k.val; omega
  | ⟨1, _⟩ => show win0_1.index t (1 : Fin 2) * 128 + 1 * j.val = j.val; omega

theorem Wblk0_apply (c : Dev nD) (t : Fin cfg0.N) (j f : Fin 128) :
    Wblk0 V c t (ix2 j f) = W0 V c (ix2 j f) := by
  obtain ⟨-, -, -, -, e4, e5, -⟩ := idx_facts0 t
  refine congrArg (V c main_v20) (funext fun a => Fin.ext ?_)
  match a with
  | ⟨0, _⟩ => show win0_2.index t (0 : Fin 2) * 128 + 1 * j.val = j.val; omega
  | ⟨1, _⟩ => show win0_2.index t (1 : Fin 2) * 128 + 1 * f.val = f.val; omega

theorem Bblk0_apply (c : Dev nD) (t : Fin cfg0.N) (f : Fin 128) :
    Bblk0 V c t (ix2 (0 : Fin 1) f) = B0 V c (ix2 (0 : Fin 1) f) := by
  obtain ⟨-, -, -, -, -, -, e6, e7, -⟩ := idx_facts0 t
  refine congrArg (V c main_v21) (funext fun a => Fin.ext ?_)
  match a with
  | ⟨0, _⟩ => show win0_3.index t (0 : Fin 2) * 1 + 1 * 0 = 0; omega
  | ⟨1, _⟩ => show win0_3.index t (1 : Fin 2) * 128 + 1 * f.val = f.val; omega

theorem step0_term (c : Dev nD) (t : Fin cfg0.N) (x : Fin 1280) (j : Fin 128) (r : Fin 10240) (k : Fin 4)
    (hr : r.val = 1280 * (t.val / 4) + x.val) (hk : k.val = t.val % 4) :
    ∑ y : Fin 2560, Ablk0 V c t (ix2 x y) * Hblk0 V c t (ix2 y j) = blockTerm (A0 V c) (H0 V c) r j k := by
  unfold blockTerm
  refine Finset.sum_congr rfl fun y _ => ?_
  rw [Ablk0_apply V c t x y r (colAt k y) hr (by show 2560 * k.val + y.val = _; rw [hk]),
    Hblk0_apply V c t y j (colAt k y) (by show 2560 * k.val + y.val = _; rw [hk])]

theorem acc0_eq (c : Dev nD) : ∀ (n : ℕ) (hn : n < cfg0.N) (x : Fin 1280) (j : Fin 128) (r : Fin 10240),
    r.val = 1280 * (n / 4) + x.val →
    (outsAt0 V c n hn).2 (ix2 x j) = partSum (A0 V c) (H0 V c) r j (n % 4)
  | 0, hn, x, j, r, hr => by
    refine (congrFun (acc0_first V c ⟨0, hn⟩ rfl) (ix2 x j)).trans ?_
    refine (k0_pay2_apply (k0_pay1 (F := Ideal)) (Ablk0 V c ⟨0, hn⟩) (Hblk0 V c ⟨0, hn⟩) x j).trans ?_
    rw [k0_pay1_apply, zero_add]
    exact step0_term V c ⟨0, hn⟩ x j r 0 hr rfl
  | n + 1, hn, x, j, r, hr => by
    by_cases h0 : (n + 1) % 4 = 0
    · refine (congrFun (acc0_first V c ⟨n + 1, hn⟩ h0) (ix2 x j)).trans ?_
      refine (k0_pay2_apply (k0_pay1 (F := Ideal)) (Ablk0 V c ⟨n + 1, hn⟩) (Hblk0 V c ⟨n + 1, hn⟩) x j).trans ?_
      rw [k0_pay1_apply, zero_add, h0]
      exact step0_term V c ⟨n + 1, hn⟩ x j r 0 hr (by show 0 = (n + 1) % 4; omega)
    · refine (congrFun (acc0_next V c ⟨n + 1, hn⟩ h0) (ix2 x j)).trans ?_
      refine (k0_pay2_apply (outsAt0 V c n (Nat.lt_of_succ_lt hn)).2 (Ablk0 V c ⟨n + 1, hn⟩) (Hblk0 V c ⟨n + 1, hn⟩) x j).trans ?_
      have hm : (n + 1) % 4 = n % 4 + 1 := by omega
      rw [hm, partSum_succ, acc0_eq c n (Nat.lt_of_succ_lt hn) x j r (by omega)]
      exact congrArg (partSum (A0 V c) (H0 V c) r j (n % 4) + ·)
        (step0_term V c ⟨n + 1, hn⟩ x j r ⟨(n % 4 + 1) % 4, Nat.mod_lt _ (by decide)⟩ hr (by show (n % 4 + 1) % 4 = (n + 1) % 4; omega))

def lay0 (c : Dev nD) (r : Fin 10240) (f : Fin 128) : EReal :=
  k0_pay_act ((∑ j : Fin 128, (∑ k : Fin 10240, A0 V c (ix2 r k) * H0 V c (ix2 k j)) * W0 V c (ix2 j f)) + B0 V c (ix2 (0 : Fin 1) f))

theorem lay0_eq_lin (c : Dev nD) (r : Fin 10240) (f : Fin 128) :
    lay0 V c r f = k0_pay_act (Cert.Spec.lin (fun r j => ∑ k : Fin 10240, A0 V c (ix2 r k) * H0 V c (ix2 k j))
      (fun j f => W0 V c (ix2 j f)) (fun f => B0 V c (ix2 (0 : Fin 1) f)) r f) := rfl

def G0 (c : Dev nD) : S10240x128.Idx → EReal := fun i => lay0 V c (i 0) (i 1)

theorem G0_apply (c : Dev nD) (r : Fin 10240) (f : Fin 128) : G0 V c (ix2 r f) = lay0 V c r f := rfl

theorem out0_apply (c : Dev nD) (t : Fin cfg0.N) (h1 : t.val % 4 = 3) (x : Fin 1280) (f : Fin 128) (r : Fin 10240)
    (hr : r.val = 1280 * (t.val / 4) + x.val) :
    (outsAt0 V c t.val t.isLt).1 (ix2 x f) = lay0 V c r f := by
  refine (congrFun (out0_last V c t h1) (ix2 x f)).trans ?_
  refine (k0_pay3_apply (outsAt0 V c t.val t.isLt).2 (Wblk0 V c t) (Bblk0 V c t) x f).trans ?_
  unfold lay0
  rw [Bblk0_apply V c t f]
  refine congrArg (fun s => k0_pay_act (s + B0 V c (ix2 (0 : Fin 1) f))) (Finset.sum_congr rfl fun j _ => ?_)
  rw [Wblk0_apply V c t j f, acc0_eq V c t.val t.isLt x j r hr, h1, partSum_three]

theorem mem_blk0 (t : Fin cfg0.N) (i : S10240x128.Idx) :
    i ∈ ((cfg0.win 4).blk t).view.set ↔ ∀ a : Fin 2, win0_4.index t a * S1280x128.size a ≤ (i a).val ∧ (i a).val < win0_4.index t a * S1280x128.size a + S1280x128.size a := by
  show i ∈ ((View.whole main_v22).slice (win0_4.rect t)).set ↔ _
  rw [View.set_slice_whole, Rect.mem_set_unit]
  exact Iff.rfl

theorem flushed0_eq (c : Dev nD) (t : Fin cfg0.N) (hf : (cfg0.win 4).flush t = true) :
    (dat0 V c).flushed 4 t = ((cfg0.win 4).blk t).view.read (Elt Ideal) (G0 V c) := by
  have h1 : t.val % 4 = 3 := (flush0_4 t).mp hf
  have hN : cfg0.N = 32 := N_0
  have ht := t.isLt
  obtain ⟨-, -, -, -, -, -, -, -, e8, e9⟩ := idx_facts0 t
  show (cfg0.win 4).cut (grid0.coords t) ((dat0 V c).after 4 t) = _
  rw [after0_4]
  funext y
  obtain ⟨x, f, rfl⟩ : ∃ (x : Fin 1280) (f : Fin 128), y = ix2 x f := ⟨y 0, y 1, eq_ix2 (n0 := 1280) (n1 := 128) y⟩
  rw [View.read_apply]
  show (outsAt0 V c t.val t.isLt).1 (ix2 x f) = G0 V c (((cfg0.win 4).blk t).view.emb (ix2 x f))
  have hx := x.isLt
  rw [out0_apply V c t h1 x f ⟨1280 * (t.val / 4) + x.val, by omega⟩ rfl, ← G0_apply]
  refine congrArg (G0 V c) (funext fun a => Fin.ext ?_)
  match a with
  | ⟨0, _⟩ => show 1280 * (t.val / 4) + x.val = win0_4.index t (0 : Fin 2) * 1280 + 1 * x.val; omega
  | ⟨1, _⟩ => show f.val = win0_4.index t (1 : Fin 2) * 128 + 1 * f.val; omega

theorem cover0 (i : S10240x128.Idx) :
    ∃ t : Fin cfg0.N, (cfg0.win 4).flush t = true ∧ i ∈ ((cfg0.win 4).blk t).view.set := by
  have h0 : (i 0).val < 10240 := (i 0).isLt
  have h1 : (i 1).val < 128 := (i 1).isLt
  have hN : cfg0.N = 32 := N_0
  obtain ⟨t, ht⟩ : ∃ t : Fin cfg0.N, t.val = 4 * ((i 0).val / 1280) + 3 := ⟨⟨4 * ((i 0).val / 1280) + 3, by omega⟩, rfl⟩
  obtain ⟨-, -, -, -, -, -, -, -, e8, e9⟩ := idx_facts0 t
  refine ⟨t, (flush0_4 t).mpr (by omega), ?_⟩
  rw [mem_blk0]
  intro a
  match a with
  | ⟨0, _⟩ => show win0_4.index t (0 : Fin 2) * 1280 ≤ (i 0).val ∧ (i 0).val < win0_4.index t (0 : Fin 2) * 1280 + 1280; omega
  | ⟨1, _⟩ => show win0_4.index t (1 : Fin 2) * 128 ≤ (i 1).val ∧ (i 1).val < win0_4.index t (1 : Fin 2) * 128 + 128; omega

theorem final0 (c : Dev nD) : (dat0 V c).arrAt 4 cfg0.N = G0 V c :=
  (dat0 V c).arrAt_eq_of_cover 4 (G0 V c) (flushed0_eq V c) cover0

theorem final0_apply (c : Dev nD) (r : Fin 10240) (f : Fin 128) :
    (dat0 V c).arrAt 4 cfg0.N (ix2 r f) = lay0 V c r f :=
  congrFun (final0 V c) (ix2 r f)

end AtIdeal

end Cert.KernelIdeal.HandValue

end
-- ==== Proof.KernelIdeal.Region2Pay.lean ====
import proofs.«418163_j13657996001620_2_alg».proof.Proof.KernelIdeal.PayOps

noncomputable section

open Idealize.ShloMosaic Idealize.ShloMosaic.ValueIdx
open scoped BigOperators

namespace Cert.KernelIdeal.HandValue

open Cert.KernelIdeal Cert.KernelIdeal.Gen

theorem k2_pay1_apply (i : S1280x128.Idx) : (k2_pay1 (F := Ideal)) i = 0 := by
  unfold k2_pay1
  exact zeroBlk_apply i

theorem k2_pay2_apply (acc : FVec Ideal S1280x128 .f32) (a : FVec Ideal S1280x2560 .bf16) (h : FVec Ideal S2560x128 .bf16)
    (x : Fin 1280) (j : Fin 128) :
    k2_pay2 (F := Ideal) acc a h (ix2 x j) = acc (ix2 x j) + ∑ y : Fin 2560, a (ix2 x y) * h (ix2 y j) := by
  unfold k2_pay2
  exact accStep_apply acc a h x j

abbrev k2_pay_act (x : EReal) : EReal := x

theorem k2_pay3_apply (acc : FVec Ideal S1280x128 .f32) (w : FVec Ideal S128x128 .bf16) (b : FVec Ideal S1x128 .f32)
    (x : Fin 1280) (f : Fin 128) :
    k2_pay3 (F := Ideal) acc w b (ix2 x f)
      = k2_pay_act ((∑ j : Fin 128, acc (ix2 x j) * w (ix2 j f)) + b (ix2 (0 : Fin 1) f)) := by
  unfold k2_pay3
  exact affine_apply acc w b x f

end Cert.KernelIdeal.HandValue

end
-- ==== Proof.KernelIdeal.Host1.lean ====
import proofs.«418163_j13657996001620_2_alg».proof.Proof.Gen.KernelIdeal.Regions
import proofs.«418163_j13657996001620_2_alg».proof.Proof.Spec
import Idealize.ShloMosaic.Lib.ValueLayout
import Idealize.ShloMosaic.Lib.KernelVsHost

set_option maxRecDepth 16384

noncomputable section

namespace Cert.KernelIdeal.HandHost

open Idealize.ShloMosaic Idealize.ShloMosaic.TcCoe Idealize.ShloMosaic.ValueIdx
open Cert.KernelIdeal Cert.KernelIdeal.Gen

namespace PointScatter

abbrev scatPt (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · rintro rfl a
      have := (h a).1
      simp only [Int.toNat_of_nonneg this]
    · intro hh
      funext a
      refine Fin.ext ?_
      simp only [hh a, Int.toNat_natCast]
  · constructor
    · intro hh; cases hh
    · intro hh
      exfalso
      apply h
      intro a
      rw [hh a]
      exact ⟨Int.natCast_nonneg _, by exact_mod_cast (i a).isLt⟩

section ScatPt
variable {N M E w : Nat} (wf : ScatterDims.WF ⟨2, ![N, M]⟩ ⟨2, ![E, 2]⟩ ⟨1, ![E]⟩ [] [0, 1] [0, 1] 1)

theorem scatPt_start (j : (⟨1, ![E]⟩ : Shape).Idx) (idx : IVec ⟨2, ![E, 2]⟩ w) (a : Fin 2) :
    (scatPt N M E wf).start j idx a = (idx (ix2 (j 0) a)).toInt := by
  have hm : a ∈ (scatPt N M E wf).scatterDimsToOperandDims := by match a with | ⟨0, _⟩ | ⟨1, _⟩ => simp
  have hsi : (scatPt N M E wf).siIdx j ⟨List.idxOf a (scatPt N M E wf).scatterDimsToOperandDims,
      List.idxOf_lt_length_iff.2 hm⟩ = ix2 (j 0) a := by
    funext b; refine Fin.ext ?_
    match a, b with
    | ⟨0, _⟩, ⟨0, _⟩ | ⟨0, _⟩, ⟨1, _⟩ | ⟨1, _⟩, ⟨0, _⟩ | ⟨1, _⟩, ⟨1, _⟩ => rfl
  unfold ScatterDims.start
  rw [dif_pos hm]
  exact congrArg (fun i => (idx i).toInt) hsi

theorem scatPt_window (j : (⟨1, ![E]⟩ : Shape).Idx) (a : Fin 2) :
    (scatPt N M E wf).window j a = 0 := by
  unfold ScatterDims.window
  rw [dif_neg]
  match a with
  | ⟨0, _⟩ | ⟨1, _⟩ => simp [ScatterDims.sKept, Shape.kept]

theorem scatPt_lands (e : Fin E) (r : Fin N) (k : Fin M) (idx : IVec ⟨2, ![E, 2]⟩ w) :
    (scatPt N M E wf).resultIdx? (ix1 e) idx = some (ix2 r k)
      ↔ (idx (ix2 e (0 : Fin 2))).toInt = (r.val : Int) ∧ (idx (ix2 e (1 : Fin 2))).toInt = (k.val : Int) := by
  rw [resultIdx?_eq_some_iff, Fin.forall_fin_two]
  simp only [scatPt_start, scatPt_window, Nat.cast_zero, add_zero]
  exact Iff.rfl

end ScatPt

theorem sum_idx1 {A : Type*} [AddCommMonoid A] {n : Nat} (f : (⟨1, ![n]⟩ : Shape).Idx → A) :
    ∑ i, f i = ∑ a : Fin n, f (ix1 a) :=
  Fintype.sum_equiv ⟨fun i => i 0, fun a => ix1 a, fun i => (eq_ix1 i).symm, fun _ => rfl⟩ _ _
    (fun i => congrArg f (eq_ix1 i))

theorem scatPt_apply {N M E w : Nat} (wf) (x : (⟨2, ![N, M]⟩ : Shape).Idx → EReal) (idx : IVec ⟨2, ![E, 2]⟩ w)
    (upd : (⟨1, ![E]⟩ : Shape).Idx → EReal) (r : Fin N) (k : Fin M) :
    Ideal.hostScatterAdd (scatPt N M E wf) x idx upd (ix2 r k)
      = x (ix2 r k) + ∑ e ∈ Finset.univ.filter (fun e : Fin E =>
          (idx (ix2 e (0 : Fin 2))).toInt = (r.val : Int) ∧ (idx (ix2 e (1 : Fin 2))).toInt = (k.val : Int)), upd (ix1 e) := by
  unfold Ideal.hostScatterAdd
  congr 1
  rw [Finset.sum_filter, Finset.sum_filter, sum_idx1]
  refine Finset.sum_congr rfl fun e _ => ?_
  simp only [scatPt_lands]

end PointScatter

theorem wrap_apply (x : IVec S640000 32) (e : Fin 640000) (h0 : 0 ≤ (x (ix1 e)).toInt) :
    select (cmpi .slt x (broadcastInDim S640000 ![] bcast_S_S640000 (constantI S_ 32 0#32)))
      (addi x (broadcastInDim S640000 ![] bcast_S_S640000 (constantI S_ 32 10240#32))) x (ix1 e) = x (ix1 e) := by
  show Scalar.select (IntOp.cmpi .slt (x (ix1 e)) 0#32) _ (x (ix1 e)) = _
  have hs : (x (ix1 e)).slt 0#32 = false := by
    rw [Bool.eq_false_iff]
    intro h
    rw [BitVec.slt_iff_toInt_lt, BitVec.toInt_zero] at h
    omega
  show Scalar.select (BitVec.ofBool ((x (ix1 e)).slt 0#32)) _ (x (ix1 e)) = _
  rw [hs]
  exact select_zero _ _

theorem col_apply (a : IVec S640000 32) (e : Fin 640000) :
    broadcastInDim S640000x1 ![0] bcast_S640000_S640000x1_0 a (ix2 e (0 : Fin 1)) = a (ix1 e) :=
  broadcastInDim_apply _ _ a (ix2 e (0 : Fin 1)) (ix1 e) fun i => by
    match i with
    | ⟨0, _⟩ =>
      show e.val = if (640000 : Nat) = 1 then 0 else e.val
      rw [if_neg (by omega)]

theorem cols_apply0 (a b : IVec S640000 32) (e : Fin 640000) :
    concatenate S640000x2 1 [⟨S640000x1, broadcastInDim S640000x1 ![0] bcast_S640000_S640000x1_0 a⟩,
      ⟨S640000x1, broadcastInDim S640000x1 ![0] bcast_S640000_S640000x1_0 b⟩]
      concatenates_S640000x1_S640000x1_S640000x2_d1 (ix2 e (0 : Fin 2)) = a (ix1 e) := by
  refine (concatenate_pair_apply_left (t := S640000x2) (s₁ := S640000x1) (s₂ := S640000x1) (1 : Fin 2) _ _ _ (ix2 e (0 : Fin 2)) rfl (ix2 e (0 : Fin 1)) ?_).trans (col_apply a e)
  intro i
  match i with
  | ⟨0, _⟩ | ⟨1, _⟩ => rfl

theorem cols_apply1 (a b : IVec S640000 32) (e : Fin 640000) :
    concatenate S640000x2 1 [⟨S640000x1, broadcastInDim S640000x1 ![0] bcast_S640000_S640000x1_0 a⟩,
      ⟨S640000x1, broadcastInDim S640000x1 ![0] bcast_S640000_S640000x1_0 b⟩]
      concatenates_S640000x1_S640000x1_S640000x2_d1 (ix2 e (1 : Fin 2)) = b (ix1 e) := by
  refine (concatenate_pair_apply_right (t := S640000x2) (s₁ := S640000x1) (s₂ := S640000x1) (1 : Fin 2) _ _ _ (ix2 e (1 : Fin 2)) rfl rfl (ix2 e (0 : Fin 1)) ?_ rfl).trans (col_apply b e)
  intro i hi
  match i with
  | ⟨0, _⟩ => rfl
  | ⟨1, _⟩ => exact absurd rfl hi

theorem scatter_apply (x : FVec Idealize.ShloMosaic.Ideal S10240x10240 .f32) (idx : IVec S640000x2 32)
    (vals : FVec Idealize.ShloMosaic.Ideal S640000 .f32) (r k : Fin 10240) :
    (truncf .bf16 (Host.scatterAdd scatter_S10240x10240_S640000x2_S640000_n_01_01_1 x idx vals) bitsLt_bf16_f32
        : S10240x10240.Idx → EReal) (ix2 r k)
      = x (ix2 r k) + ∑ e ∈ Finset.univ.filter (fun e : Fin 640000 =>
          (idx (ix2 e (0 : Fin 2))).toInt = (r.val : Int) ∧ (idx (ix2 e (1 : Fin 2))).toInt = (k.val : Int)), vals (ix1 e) :=
  PointScatter.scatPt_apply scatter_S10240x10240_S640000x2_S640000_n_01_01_1_wf x idx vals r k

theorem zeros_apply (r k : Fin 10240) :
    (broadcastInDim S10240x10240 ![] bcast_S_S10240x10240 (constant (F := Idealize.ShloMosaic.Ideal) S_ .f32 0x00000000#32)
        : S10240x10240.Idx → EReal) (ix2 r k) = 0 :=
  Ideal.ofBits_zero_f32

theorem padv_apply (i : S_.Idx) : (sitofp (F := Idealize.ShloMosaic.Ideal) .f32 (constantI S_ 32 0#32) : S_.Idx → EReal) i = 0 := by
  show (((0#32 : BitVec 32).toInt : ℝ) : EReal) = 0
  rw [BitVec.toInt_zero, Int.cast_zero, EReal.coe_zero]

theorem padRows_apply (x : S10000x128.Idx → EReal) (k : Fin 10240) (j : Fin 128) :
    (truncf .bf16 (pad S10240x128 ![0, 0] ![240, 0] ![0, 0] x
      (sitofp (F := Idealize.ShloMosaic.Ideal) .f32 (constantI S_ 32 0#32)) pads_S10000x128_S10240x128_02400_000 h_S_)
      bitsLt_bf16_f32 : S10240x128.Idx → EReal) (ix2 k j)
      = Cert.Spec.padRows (fun r j => x (ix2 r j)) k j := by
  show pad S10240x128 ![0, 0] ![240, 0] ![0, 0] x _ pads_S10000x128_S10240x128_02400_000 h_S_ (ix2 k j) = _
  unfold Cert.Spec.padRows
  by_cases hk : k.val < 10000
  · rw [dif_pos hk]
    refine pad_apply_of_inside _ _ _ x _ _ _ (ix2 k j) (ix2 (⟨k.val, hk⟩ : Fin 10000) j) ?_
    intro a
    match a with
    | ⟨0, _⟩ => show k.val = 0 + k.val * (0 + 1); omega
    | ⟨1, _⟩ => show j.val = 0 + j.val * (0 + 1); omega
  · rw [dif_neg hk]
    refine (pad_apply_of_not_inside _ _ _ x _ _ _ (ix2 k j) (0 : Fin 2) ?_).trans (padv_apply _)
    show ¬(0 ≤ k.val ∧ (k.val - 0) % (0 + 1) = 0 ∧ (k.val - 0) / (0 + 1) < 10000)
    omega

theorem padCols_apply (x : S128x40.Idx → EReal) (j f : Fin 128) :
    (pad S128x128 ![0, 0] ![0, 88] ![0, 0] x
      (sitofp (F := Idealize.ShloMosaic.Ideal) .f32 (constantI S_ 32 0#32)) pads_S128x40_S128x128_000_0880 h_S_
        : S128x128.Idx → EReal) (ix2 j f)
      = if hf : f.val < 40 then x (ix2 j (⟨f.val, hf⟩ : Fin 40)) else 0 := by
  by_cases hf : f.val < 40
  · rw [dif_pos hf]
    refine pad_apply_of_inside _ _ _ x _ _ _ (ix2 j f) (ix2 j (⟨f.val, hf⟩ : Fin 40)) ?_
    intro a
    match a with
    | ⟨0, _⟩ => show j.val = 0 + j.val * (0 + 1); omega
    | ⟨1, _⟩ => show f.val = 0 + f.val * (0 + 1); omega
  · rw [dif_neg hf]
    refine (pad_apply_of_not_inside _ _ _ x _ _ _ (ix2 j f) (1 : Fin 2) ?_).trans (padv_apply _)
    show ¬(0 ≤ f.val ∧ (f.val - 0) % (0 + 1) = 0 ∧ (f.val - 0) / (0 + 1) < 40)
    omega

theorem padVec_apply (x : S40.Idx → EReal) (f : Fin 128) :
    (pad S128 ![0] ![88] ![0] x
      (sitofp (F := Idealize.ShloMosaic.Ideal) .f32 (constantI S_ 32 0#32)) pads_S40_S128_0880 h_S_ : S128.Idx → EReal) (ix1 f)
      = if hf : f.val < 40 then x (ix1 (⟨f.val, hf⟩ : Fin 40)) else 0 := by
  by_cases hf : f.val < 40
  · rw [dif_pos hf]
    refine pad_apply_of_inside _ _ _ x _ _ _ (ix1 f) (ix1 (⟨f.val, hf⟩ : Fin 40)) ?_
    intro a
    match a with
    | ⟨0, _⟩ => show f.val = 0 + f.val * (0 + 1); omega
  · rw [dif_neg hf]
    refine (pad_apply_of_not_inside _ _ _ x _ _ _ (ix1 f) (0 : Fin 1) ?_).trans (padv_apply _)
    show ¬(0 ≤ f.val ∧ (f.val - 0) % (0 + 1) = 0 ∧ (f.val - 0) / (0 + 1) < 40)
    omega

section AtEntry
variable (m : (ℓ : Loc nD τ sig) → Buf (Elt Idealize.ShloMosaic.Ideal) ℓ) (c : Dev nD)

set_option maxHeartbeats 1000000 in
theorem V7_main_v15
    (hrow : ∀ e : Fin 640000, 0 ≤ ((m (c, main_arg1) : S640000.Idx → BitVec 32) (ix1 e)).toInt
      ∧ ((m (c, main_arg1) : S640000.Idx → BitVec 32) (ix1 e)).toInt < 10000)
    (hcol : ∀ e : Fin 640000, 0 ≤ ((m (c, main_arg2) : S640000.Idx → BitVec 32) (ix1 e)).toInt
      ∧ ((m (c, main_arg2) : S640000.Idx → BitVec 32) (ix1 e)).toInt < 10000)
    (r k : Fin 10240) :
    (V7 m c main_v15 : S10240x10240.Idx → EReal) (ix2 r k)
      = Cert.Spec.adj (fun e => ((m (c, main_arg1) : S640000.Idx → BitVec 32) (ix1 e)).toInt)
          (fun e => ((m (c, main_arg2) : S640000.Idx → BitVec 32) (ix1 e)).toInt)
          (fun e => (m (c, main_arg3) : S640000.Idx → EReal) (ix1 e)) r k := by
  rw [V7_of m c main_v15 (by decide), V6_of m c main_v15 (by decide), V5_of m c main_v15 (by decide), V4_of m c main_v15 (by decide),
    V3_of m c main_v15 (by decide), V2_of m c main_v15 (by decide)]
  show StableHlo.after hostOps0 _ (Proc.devRef .tc main_v15) _ = _
  after_results
  refine (scatter_apply _ _ _ r k).trans ?_
  rw [zeros_apply, zero_add]
  unfold Cert.Spec.adj
  refine Finset.sum_congr (Finset.filter_congr fun e _ => ?_) fun _ _ => rfl
  rw [cols_apply0, cols_apply1, wrap_apply (m (c, main_arg1)) e (hrow e).1, wrap_apply (m (c, main_arg2)) e (hcol e).1]

theorem V7_main_v19 (k : Fin 10240) (j : Fin 128) :
    (V7 m c main_v19 : S10240x128.Idx → EReal) (ix2 k j)
      = Cert.Spec.padRows (fun r j => (m (c, main_arg0) : S10000x128.Idx → EReal) (ix2 r j)) k j := by
  show StableHlo.after hostOps0_6 _ (Proc.devRef .tc main_v19) _ = _
  after_results
  exact padRows_apply (m (c, main_arg0)) k j

theorem V7_main_v20 (j f : Fin 128) :
    (V7 m c main_v20 : S128x128.Idx → EReal) (ix2 j f) = (m (c, main_arg4) : S128x128.Idx → EReal) (ix2 j f) := by
  show StableHlo.after hostOps0_6 _ (Proc.devRef .tc main_v20) _ = _
  after_results
  rfl

theorem V7_main_v21 (u : Fin 1) (f : Fin 128) :
    (V7 m c main_v21 : S1x128.Idx → EReal) (ix2 u f) = (m (c, main_arg5) : S128.Idx → EReal) (ix1 f) := by
  show StableHlo.after hostOps0_6 _ (Proc.devRef .tc main_v21) _ = _
  after_results
  exact shapeCast_a_1a_apply (m (c, main_arg5)) shapeCasts_S128_S1x128 u f

theorem V7_main_v16 (j f : Fin 128) :
    (V7 m c main_v16 : S128x128.Idx → EReal) (ix2 j f)
      = if hf : f.val < 40 then (m (c, main_arg12) : S128x40.Idx → EReal) (ix2 j (⟨f.val, hf⟩ : Fin 40)) else (0 : EReal) := by
  rw [V7_of m c main_v16 (by decide), V6_of m c main_v16 (by decide), V5_of m c main_v16 (by decide), V4_of m c main_v16 (by decide),
    V3_of m c main_v16 (by decide)]
  show StableHlo.after hostOps0_1 _ (Proc.devRef .tc main_v16) _ = _
  after_results
  exact padCols_apply (m (c, main_arg12)) j f

theorem V7_main_v17 (f : Fin 128) :
    (V7 m c main_v17 : S128.Idx → EReal) (ix1 f)
      = if hf : f.val < 40 then (m (c, main_arg13) : S40.Idx → EReal) (ix1 (⟨f.val, hf⟩ : Fin 40)) else (0 : EReal) := by
  rw [V7_of m c main_v17 (by decide), V6_of m c main_v17 (by decide), V5_of m c main_v17 (by decide)]
  show StableHlo.after hostOps0_3 _ (Proc.devRef .tc main_v17) _ = _
  after_results
  exact padVec_apply (m (c, main_arg13)) f

end AtEntry

end Cert.KernelIdeal.HandHost

end
-- ==== Proof.KernelIdeal.Host2.lean ====
import proofs.«418163_j13657996001620_2_alg».proof.Proof.KernelIdeal.Host1
import proofs.«418163_j13657996001620_2_alg».proof.Proof.Gen.ReferenceIdeal
import proofs.«418163_j13657996001620_2_alg».proof.Proof.RefStages
import proofs.«418163_j13657996001620_2_alg».proof.Proof.Spec
import Idealize.ShloMosaic.Lib.StableHlo.Run
import Idealize.ShloMosaic.Lib.Pipeline.Value
import Idealize.ShloMosaic.Lib.ValueLayout
import Idealize.ShloMosaic.Lib.ValueIdx
import Idealize.ShloMosaic.Lib.IdealHost
import Idealize.ShloMosaic.Lib.KernelVsHost

set_option maxRecDepth 16384

noncomputable section

namespace Cert.KernelIdeal.HandHost

open Idealize.ShloMosaic Idealize.ShloMosaic.TcCoe
open Idealize.ShloMosaic.StableHlo
open Idealize.ShloMosaic.ValueIdx
open Cert.KernelIdeal.Gen

local notation "𝕀" => Idealize.ShloMosaic.Ideal

def rows10000 (y : FVec 𝕀 S10240x128 .bf16) : FVec 𝕀 S10000x128 .f32 :=
  extf .f32 (extractStridedSlice S10000x128 ![0, 0] y slices_S10240x128_S10000x128_0_0) bitsLt_bf16_f32

theorem rows10000_apply (y : FVec 𝕀 S10240x128 .bf16) (r : Fin 10000) (f : Fin 128) :
    rows10000 y (ix2 r f) = y (ix2 ⟨r.val, by omega⟩ f) := by
  unfold rows10000
  rw [extf_apply]
  refine extractStridedSlice_apply _ _ _ _ _ (fun a => ?_)
  fin_cases a <;> simp [ix2]

def slice40 (y : FVec 𝕀 S10240x128 .f32) : FVec 𝕀 S10000x40 .f32 :=
  extractStridedSlice S10000x40 ![0, 0] y slices_S10240x128_S10000x40_0_0

theorem slice40_apply (y : FVec 𝕀 S10240x128 .f32) (r : Fin 10000) (f : Fin 40) :
    slice40 y (ix2 r f) = y (ix2 ⟨r.val, by omega⟩ ⟨f.val, by omega⟩) := by
  unfold slice40
  refine extractStridedSlice_apply _ _ _ _ _ (fun a => ?_)
  fin_cases a <;> simp [ix2]

-- Both inner layers prepare the next layer's features this way.
theorem padded_apply {a : FVec 𝕀 S10240x128 .bf16} {b : FVec 𝕀 S10240x128 .f32} {x : FVec 𝕀 S10000x128 .f32} {z : IVec S_ 32}
    (ha : a = (truncf .bf16 b bitsLt_bf16_f32 : FVec 𝕀 S10240x128 .bf16))
    (hb : b = pad S10240x128 ![0, 0] ![240, 0] ![0, 0] x (sitofp .f32 z : FVec 𝕀 S_ .f32) pads_S10000x128_S10240x128_02400_000 h_S_)
    (hz : z = constantI S_ 32 0#32) (k : Fin 10240) (j : Fin 128) :
    a (ix2 k j) = Cert.Spec.padRows (fun r f => x (ix2 r f)) k j := by
  subst ha hb hz
  exact padRows_apply x k j

section Stretches
variable (W : Valuation τ sig (Elt 𝕀))

theorem s1_v49 :
    (StableHlo.after hostOps1 W (Proc.devRef .tc main_v49) : FVec 𝕀 S10000x128 .f32)
      = Cert.ReferenceIdeal.Stages.bnStage (rows10000 (W main_v22)) (W main_arg6) (W main_arg7) := by
  after_results_simp
  rfl

theorem s1_c11 :
    (StableHlo.after hostOps1 W (Proc.devRef .tc main_c_11) : IVec S_ 32) = constantI S_ 32 0#32 := by
  after_results_simp

theorem s11_v50 :
    (StableHlo.after hostOps1_1 W (Proc.devRef .tc main_v50) : FVec 𝕀 S10240x128 .f32)
      = pad S10240x128 ![0, 0] ![240, 0] ![0, 0] (W main_v49 : FVec 𝕀 S10000x128 .f32)
          (sitofp .f32 (W main_c_11 : IVec S_ 32) : FVec 𝕀 S_ .f32) pads_S10000x128_S10240x128_02400_000 h_S_ := by
  after_results
  rfl

theorem s12_v51 :
    (StableHlo.after hostOps1_2 W (Proc.devRef .tc main_v51) : FVec 𝕀 S10240x128 .bf16)
      = (truncf .bf16 (W main_v50 : FVec 𝕀 S10240x128 .f32) bitsLt_bf16_f32 : FVec 𝕀 S10240x128 .bf16) := by
  after_results

theorem s12_v52 :
    (StableHlo.after hostOps1_2 W (Proc.devRef .tc main_v52) : FVec 𝕀 S128x128 .bf16)
      = (truncf .bf16 (W main_arg8 : FVec 𝕀 S128x128 .f32) bitsLt_bf16_f32 : FVec 𝕀 S128x128 .bf16) := by
  after_results

theorem s12_v53 :
    (StableHlo.after hostOps1_2 W (Proc.devRef .tc main_v53) : FVec 𝕀 S1x128 .f32)
      = shapeCast S1x128 (W main_arg9 : FVec 𝕀 S128 .f32) shapeCasts_S128_S1x128 := by
  after_results
  rfl

theorem s2_v81 :
    (StableHlo.after hostOps2 W (Proc.devRef .tc main_v81) : FVec 𝕀 S10000x128 .f32)
      = Cert.ReferenceIdeal.Stages.bnStage (rows10000 (W main_v54)) (W main_arg10) (W main_arg11) := by
  after_results_simp
  rfl

theorem s2_c17 :
    (StableHlo.after hostOps2 W (Proc.devRef .tc main_c_17) : IVec S_ 32) = constantI S_ 32 0#32 := by
  after_results_simp

theorem s21_v82 :
    (StableHlo.after hostOps2_1 W (Proc.devRef .tc main_v82) : FVec 𝕀 S10240x128 .f32)
      = pad S10240x128 ![0, 0] ![240, 0] ![0, 0] (W main_v81 : FVec 𝕀 S10000x128 .f32)
          (sitofp .f32 (W main_c_17 : IVec S_ 32) : FVec 𝕀 S_ .f32) pads_S10000x128_S10240x128_02400_000 h_S_ := by
  after_results
  rfl

theorem s22_v83 :
    (StableHlo.after hostOps2_2 W (Proc.devRef .tc main_v83) : FVec 𝕀 S10240x128 .bf16)
      = (truncf .bf16 (W main_v82 : FVec 𝕀 S10240x128 .f32) bitsLt_bf16_f32 : FVec 𝕀 S10240x128 .bf16) := by
  after_results

theorem s22_v84 :
    (StableHlo.after hostOps2_2 W (Proc.devRef .tc main_v84) : FVec 𝕀 S128x128 .bf16)
      = (truncf .bf16 (W main_v16 : FVec 𝕀 S128x128 .f32) bitsLt_bf16_f32 : FVec 𝕀 S128x128 .bf16) := by
  after_results

theorem s22_v85 :
    (StableHlo.after hostOps2_2 W (Proc.devRef .tc main_v85) : FVec 𝕀 S1x128 .f32)
      = shapeCast S1x128 (W main_v17 : FVec 𝕀 S128 .f32) shapeCasts_S128_S1x128 := by
  after_results
  rfl

theorem s3_v87 :
    (StableHlo.after hostOps3 W (Proc.devRef .tc main_v87) : FVec 𝕀 S10000x40 .f32) = slice40 (W main_v86) := by
  after_results
  rfl

theorem s31_v88 :
    (StableHlo.after hostOps3_1 W (Proc.devRef .tc main_v88) : FVec 𝕀 S10000x40 .f32)
      = (Cert.ReferenceIdeal.Stages.logSoftmaxStage (F := 𝕀) (W main_v87 : FVec 𝕀 S10000x40 .f32) : FVec 𝕀 S10000x40 .f32) := by
  after_results
  simp only [TRef.ofBuf, TRef.toBuf, cast_eq]
  rfl

end Stretches

variable (m : (ℓ : Loc nD τ sig) → Buf (Elt 𝕀) ℓ) (outs : Outs (F := 𝕀))

theorem V8_launch (c : Dev nD) (r : Ref sig .tc) (h0 : r ∉ hostOps0_W := by decide) (h1 : r ∉ hostOps0_1_W := by decide) (h2 : r ∉ hostOps0_2_W := by decide)
    (h3 : r ∉ hostOps0_3_W := by decide) (h4 : r ∉ hostOps0_4_W := by decide) (h5 : r ∉ hostOps0_5_W := by decide) (h6 : r ∉ hostOps0_6_W := by decide)
    (h7 : r ∉ ([main_v22] : List (Ref sig .tc)) := by decide) : V8 m outs c r = V0 m c r :=
  (V8_of m outs c r h7).trans <| (V7_of m c r h6).trans <| (V6_of m c r h5).trans <| (V5_of m c r h4).trans <|
    (V4_of m c r h3).trans <| (V3_of m c r h2).trans <| (V2_of m c r h1).trans (V1_of m c r h0)

theorem V10_V8 (c : Dev nD) (r : Ref sig .tc) (h8 : r ∉ hostOps1_W := by decide) (h9 : r ∉ hostOps1_1_W := by decide) :
    V10 m outs c r = V8 m outs c r :=
  (V10_of m outs c r h9).trans (V9_of m outs c r h8)

theorem V12_V10 (c : Dev nD) (r : Ref sig .tc) (h10 : r ∉ hostOps1_2_W := by decide) (h11 : r ∉ ([main_v54] : List (Ref sig .tc)) := by decide) :
    V12 m outs c r = V10 m outs c r :=
  (V12_of m outs c r h11).trans (V11_of m outs c r h10)

theorem V14_V12 (c : Dev nD) (r : Ref sig .tc) (h12 : r ∉ hostOps2_W := by decide) (h13 : r ∉ hostOps2_1_W := by decide) :
    V14 m outs c r = V12 m outs c r :=
  (V14_of m outs c r h13).trans (V13_of m outs c r h12)

theorem V8_v22 (c : Dev nD) : V8 m outs c main_v22 = outs 8 main_v22 c := Function.update_self ..

theorem V12_v54 (c : Dev nD) : V12 m outs c main_v54 = outs 12 main_v54 c := Function.update_self ..

theorem V16_v86 (c : Dev nD) : V16 m outs c main_v86 = outs 16 main_v86 c := Function.update_self ..

theorem v49_eq (c : Dev nD) :
    (V9 m outs c main_v49 : FVec 𝕀 S10000x128 .f32)
      = Cert.ReferenceIdeal.Stages.bnStage (rows10000 (outs 8 main_v22 c))
          (m ((c : Thread nD τ).loc main_arg6)) (m ((c : Thread nD τ).loc main_arg7)) := by
  refine (s1_v49 (V8 m outs c)).trans ?_
  rw [V8_v22, V8_launch m outs c main_arg6,
    V8_launch m outs c main_arg7]

theorem v51_apply (c : Dev nD) (k : Fin 10240) (j : Fin 128) :
    (V11 m outs c main_v51 : FVec 𝕀 S10240x128 .bf16) (ix2 k j)
      = Cert.Spec.padRows (fun r f => (V9 m outs c main_v49 : FVec 𝕀 S10000x128 .f32) (ix2 r f)) k j :=
  padded_apply (s12_v51 (V10 m outs c)) (s11_v50 (V9 m outs c)) (s1_c11 (V8 m outs c)) k j

theorem v52_apply (c : Dev nD) (i : S128x128.Idx) :
    (V11 m outs c main_v52 : FVec 𝕀 S128x128 .bf16) i = (m ((c : Thread nD τ).loc main_arg8) : FVec 𝕀 S128x128 .f32) i := by
  refine (congrFun (s12_v52 (V10 m outs c)) i).trans ?_
  rw [truncf_apply, V10_V8 m outs c main_arg8,
    V8_launch m outs c main_arg8]

theorem v53_apply (c : Dev nD) (u : Fin 1) (f : Fin 128) :
    (V11 m outs c main_v53 : FVec 𝕀 S1x128 .f32) (ix2 u f) = (m ((c : Thread nD τ).loc main_arg9) : FVec 𝕀 S128 .f32) (ix1 f) := by
  refine (congrFun (s12_v53 (V10 m outs c)) (ix2 u f)).trans ?_
  rw [shapeCast_a_1a_apply, V10_V8 m outs c main_arg9,
    V8_launch m outs c main_arg9]

theorem v15_at11 (c : Dev nD) : V11 m outs c main_v15 = V7 m c main_v15 :=
  (V11_of m outs c main_v15 (by decide)).trans <| (V10_V8 m outs c main_v15).trans
    (V8_of m outs c main_v15 (by decide))

theorem v81_eq (c : Dev nD) :
    (V13 m outs c main_v81 : FVec 𝕀 S10000x128 .f32)
      = Cert.ReferenceIdeal.Stages.bnStage (rows10000 (outs 12 main_v54 c))
          (m ((c : Thread nD τ).loc main_arg10)) (m ((c : Thread nD τ).loc main_arg11)) := by
  refine (s2_v81 (V12 m outs c)).trans ?_
  rw [V12_v54, V12_V10 m outs c main_arg10, V10_V8 m outs c main_arg10,
    V8_launch m outs c main_arg10,
    V12_V10 m outs c main_arg11, V10_V8 m outs c main_arg11,
    V8_launch m outs c main_arg11]

theorem v83_apply (c : Dev nD) (k : Fin 10240) (j : Fin 128) :
    (V15 m outs c main_v83 : FVec 𝕀 S10240x128 .bf16) (ix2 k j)
      = Cert.Spec.padRows (fun r f => (V13 m outs c main_v81 : FVec 𝕀 S10000x128 .f32) (ix2 r f)) k j :=
  padded_apply (s22_v83 (V14 m outs c)) (s21_v82 (V13 m outs c)) (s2_c17 (V12 m outs c)) k j

theorem V14_V7 (c : Dev nD) (r : Ref sig .tc) (h7 : r ∉ ([main_v22] : List (Ref sig .tc)) := by decide) (h8 : r ∉ hostOps1_W := by decide)
    (h9 : r ∉ hostOps1_1_W := by decide) (h10 : r ∉ hostOps1_2_W := by decide) (h11 : r ∉ ([main_v54] : List (Ref sig .tc)) := by decide)
    (h12 : r ∉ hostOps2_W := by decide) (h13 : r ∉ hostOps2_1_W := by decide) : V14 m outs c r = V7 m c r :=
  (V14_V12 m outs c r h12 h13).trans <| (V12_V10 m outs c r h10 h11).trans <| (V10_V8 m outs c r h8 h9).trans
    (V8_of m outs c r h7)

theorem v84_apply (c : Dev nD) (i : S128x128.Idx) :
    (V15 m outs c main_v84 : FVec 𝕀 S128x128 .bf16) i = (V7 m c main_v16 : FVec 𝕀 S128x128 .f32) i := by
  refine (congrFun (s22_v84 (V14 m outs c)) i).trans ?_
  rw [truncf_apply, V14_V7 m outs c main_v16]

theorem v85_apply (c : Dev nD) (u : Fin 1) (f : Fin 128) :
    (V15 m outs c main_v85 : FVec 𝕀 S1x128 .f32) (ix2 u f) = (V7 m c main_v17 : FVec 𝕀 S128 .f32) (ix1 f) := by
  refine (congrFun (s22_v85 (V14 m outs c)) (ix2 u f)).trans ?_
  rw [shapeCast_a_1a_apply, V14_V7 m outs c main_v17]

theorem v15_at15 (c : Dev nD) : V15 m outs c main_v15 = V7 m c main_v15 :=
  (V15_of m outs c main_v15 (by decide)).trans
    (V14_V7 m outs c main_v15)

theorem v88_eq (c : Dev nD) :
    (V18 m outs c main_v88 : FVec 𝕀 S10000x40 .f32)
      = Cert.ReferenceIdeal.Stages.logSoftmaxStage (F := 𝕀) (slice40 (outs 16 main_v86 c)) := by
  refine (s31_v88 (V17 m outs c)).trans ?_
  refine congrArg (Cert.ReferenceIdeal.Stages.logSoftmaxStage (F := 𝕀)) ?_
  refine (s3_v87 (V16 m outs c)).trans ?_
  rw [V16_v86]

end Cert.KernelIdeal.HandHost
-- ==== Proof.Bridge.lean ====
import proofs.«418163_j13657996001620_2_alg».proof.Defs
import proofs.«418163_j13657996001620_2_alg».proof.Proof.BridgeCore
import proofs.«418163_j13657996001620_2_alg».proof.Proof.PreFacts
import proofs.«418163_j13657996001620_2_alg».proof.Proof.RefStages
import proofs.«418163_j13657996001620_2_alg».proof.Proof.RefValue
import proofs.«418163_j13657996001620_2_alg».proof.Proof.RefRun
import proofs.«418163_j13657996001620_2_alg».proof.Proof.RefResult
import proofs.«418163_j13657996001620_2_alg».proof.Proof.Gen.Pre_finite_inputs
import proofs.«418163_j13657996001620_2_alg».proof.Proof.KernelIdeal.Region0Value
import proofs.«418163_j13657996001620_2_alg».proof.Proof.KernelIdeal.Region1Value
import proofs.«418163_j13657996001620_2_alg».proof.Proof.KernelIdeal.Region2Value
import proofs.«418163_j13657996001620_2_alg».proof.Proof.KernelIdeal.Host1
import proofs.«418163_j13657996001620_2_alg».proof.Proof.KernelIdeal.Host2
import proofs.«418163_j13657996001620_2_alg».proof.Proof.KernelIdeal.Run

noncomputable section

namespace Cert.Bridge

open Idealize.ShloMosaic Idealize.ShloMosaic.ValueIdx Cert.Spec

local notation "𝕀" => Idealize.ShloMosaic.Ideal

section Reference
open Cert.ReferenceIdeal Cert.ReferenceIdeal.Stages Cert.ReferenceIdeal.RefValue

variable {row col : IVec S640000 32} {val : FVec 𝕀 S640000 .f32}
  (hcol : ∀ e : Fin 640000, 0 ≤ (col (ix1 e)).toInt ∧ (col (ix1 e)).toInt < 10000)
include hcol

theorem agg_of_stage (h : FVec 𝕀 S10000x128 .f32) :
    (fun (r : Fin 10000) (j : Fin 128) => aggStage row col val h (ix2 r j))
      = aggEdges (words row) (words col) (vec val) (mat h) :=
  funext fun r => funext fun j => aggStage_apply row col val h hcol r j

theorem hidden_of_stages (h : FVec 𝕀 S10000x128 .f32) (W : FVec 𝕀 S128x128 .f32) (b γ β : FVec 𝕀 S128 .f32) :
    mat (bnStage (reluStage (linStage (aggStage row col val h) W b)) γ β)
      = hidden (aggEdges (words row) (words col) (vec val) (mat h)) (mat W) (vec b) (vec γ) (vec β) := by
  funext r f
  show bnStage _ γ β (ix2 r f) = _
  rw [bnStage_apply]
  refine congrArg (fun y => bnAt y _ _ r f) (funext fun r => funext fun f => ?_)
  rw [reluStage_apply, linStage_apply, agg_of_stage hcol]

theorem logits_of_stages (h : FVec 𝕀 S10000x128 .f32) (W3 : FVec 𝕀 S128x40 .f32) (b3 : FVec 𝕀 S40 .f32) :
    mat (linStage3 (aggStage row col val h) W3 b3)
      = lin (aggEdges (words row) (words col) (vec val) (mat h)) (mat W3) (vec b3) := by
  funext r f
  show linStage3 _ W3 b3 (ix2 r f) = _
  rw [linStage3_apply, agg_of_stage hcol]

end Reference

section Kernel
open Cert.KernelIdeal Cert.KernelIdeal.Gen Cert.KernelIdeal.Hand Cert.KernelIdeal.HandValue Cert.KernelIdeal.HandHost
open Idealize.ShloMosaic.TcCoe

variable (m : (ℓ : Loc nD τ sig) → Buf (Elt 𝕀) ℓ) (c : Dev nD)

abbrev kRow : Edge → Int := words (m (c, main_arg1) : S640000.Idx → BitVec 32)
abbrev kCol : Edge → Int := words (m (c, main_arg2) : S640000.Idx → BitVec 32)
abbrev kVal : Edge → EReal := vec (m (c, main_arg3) : S640000.Idx → EReal)
abbrev kX : Mat 10000 128 := mat (m (c, main_arg0) : S10000x128.Idx → EReal)
abbrev kW1 : Mat 128 128 := mat (m (c, main_arg4) : S128x128.Idx → EReal)
abbrev kB1 : Fin 128 → EReal := vec (m (c, main_arg5) : S128.Idx → EReal)
abbrev kG2 : Fin 128 → EReal := vec (m (c, main_arg6) : S128.Idx → EReal)
abbrev kBe2 : Fin 128 → EReal := vec (m (c, main_arg7) : S128.Idx → EReal)
abbrev kW2 : Mat 128 128 := mat (m (c, main_arg8) : S128x128.Idx → EReal)
abbrev kB2 : Fin 128 → EReal := vec (m (c, main_arg9) : S128.Idx → EReal)
abbrev kG3 : Fin 128 → EReal := vec (m (c, main_arg10) : S128.Idx → EReal)
abbrev kBe3 : Fin 128 → EReal := vec (m (c, main_arg11) : S128.Idx → EReal)
abbrev kW3 : Mat 128 40 := mat (m (c, main_arg12) : S128x40.Idx → EReal)
abbrev kB3 : Fin 40 → EReal := vec (m (c, main_arg13) : S40.Idx → EReal)

variable (hrow : ∀ e, 0 ≤ kRow m c e ∧ kRow m c e < 10000) (hcol : ∀ e, 0 ≤ kCol m c e ∧ kCol m c e < 10000)
include hrow hcol

theorem adj_apply {A : S10240x10240.Idx → EReal} (hA : A = V7 m c main_v15) (r k : Fin 10240) :
    A (ix2 r k) = adj (kRow m c) (kCol m c) (kVal m c) r k :=
  hA ▸ V7_main_v15 m c hrow hcol r k

theorem layer1 :
    mat (V9 m (outs m) c main_v49 : S10000x128.Idx → EReal)
      = hidden (aggD (kRow m c) (kCol m c) (kVal m c) (kX m c)) (kW1 m c) (kB1 m c) (kG2 m c) (kBe2 m c) := by
  refine hidden_of_arrays (y := outs m 8 main_v22 c) (fun r f => ?_) (fun r f => ?_)
  · rw [outs_8, final0_apply, lay0_eq_lin]
    exact congrArg (max · 0) (lin_of_arrays (adj_apply m c hrow hcol rfl) (fun k j => V7_main_v19 m c k j)
      (fun j f => V7_main_v20 m c j f) (fun f => V7_main_v21 m c 0 f) r f)
  · rw [v49_eq, Cert.ReferenceIdeal.RefValue.bnStage_apply]
    simp only [rows10000_apply]

theorem layer2 :
    mat (V13 m (outs m) c main_v81 : S10000x128.Idx → EReal)
      = hidden (aggD (kRow m c) (kCol m c) (kVal m c) (mat (V9 m (outs m) c main_v49 : S10000x128.Idx → EReal)))
          (kW2 m c) (kB2 m c) (kG3 m c) (kBe3 m c) := by
  refine hidden_of_arrays (y := outs m 12 main_v54 c) (fun r f => ?_) (fun r f => ?_)
  · rw [outs_12, entry1_eq, final1_apply, lay1_eq_lin]
    exact congrArg (max · 0) (lin_of_arrays (adj_apply m c hrow hcol (v15_at11 m (outs m) c))
      (fun k j => v51_apply m (outs m) c k j) (fun j f => v52_apply m (outs m) c (ix2 j f))
      (fun f => v53_apply m (outs m) c 0 f) r f)
  · rw [v81_eq, Cert.ReferenceIdeal.RefValue.bnStage_apply]
    simp only [rows10000_apply]

theorem layer3 :
    mat (slice40 (outs m 16 main_v86 c))
      = lin (aggD (kRow m c) (kCol m c) (kVal m c) (mat (V13 m (outs m) c main_v81 : S10000x128.Idx → EReal)))
          (kW3 m c) (kB3 m c) := by
  funext r f
  show slice40 _ (ix2 r f) = _
  rw [slice40_apply, outs_16, entry2_eq, final2_apply, lay2_eq_lin, ← lin_padCols _ (kW3 m c) (kB3 m c) r f]
  exact lin_of_arrays (adj_apply m c hrow hcol (v15_at15 m (outs m) c)) (fun k j => v83_apply m (outs m) c k j)
    (fun j f => (v84_apply m (outs m) c (ix2 j f)).trans (V7_main_v16 m c j f))
    (fun f => (v85_apply m (outs m) c 0 f).trans (V7_main_v17 m c f)) _ _

end Kernel

section Final
open Idealize.ShloMosaic.TcCoe Cert.ReferenceIdeal.Stages Cert.KernelIdeal.Hand

-- Both results are the row-wise log-softmax of logits that agree: the dense layers are the edge layers on real data.
theorem value_eq [hP : Cert.Pre_finite_inputs.Facts]
    (m : (ℓ : Loc KernelIdeal.nD KernelIdeal.τ KernelIdeal.sig) → Buf (Elt 𝕀) ℓ)
    (m' : (ℓ : Loc ReferenceIdeal.nD ReferenceIdeal.τ ReferenceIdeal.sig) → Buf (Elt 𝕀) ℓ)
    (hpre : Cert.Pre_KernelIdeal m)
    (hagree : ∀ c : Dev KernelIdeal.nD,
      m' (c, ReferenceIdeal.main_arg0) = m (c, KernelIdeal.main_arg0)
      ∧ m' (c, ReferenceIdeal.main_arg1) = m (c, KernelIdeal.main_arg1)
      ∧ m' (c, ReferenceIdeal.main_arg2) = m (c, KernelIdeal.main_arg2)
      ∧ m' (c, ReferenceIdeal.main_arg3) = m (c, KernelIdeal.main_arg3)
      ∧ m' (c, ReferenceIdeal.main_arg4) = m (c, KernelIdeal.main_arg4)
      ∧ m' (c, ReferenceIdeal.main_arg5) = m (c, KernelIdeal.main_arg5)
      ∧ m' (c, ReferenceIdeal.main_arg6) = m (c, KernelIdeal.main_arg6)
      ∧ m' (c, ReferenceIdeal.main_arg7) = m (c, KernelIdeal.main_arg7)
      ∧ m' (c, ReferenceIdeal.main_arg8) = m (c, KernelIdeal.main_arg8)
      ∧ m' (c, ReferenceIdeal.main_arg9) = m (c, KernelIdeal.main_arg9)
      ∧ m' (c, ReferenceIdeal.main_arg10) = m (c, KernelIdeal.main_arg10)
      ∧ m' (c, ReferenceIdeal.main_arg11) = m (c, KernelIdeal.main_arg11)
      ∧ m' (c, ReferenceIdeal.main_arg12) = m (c, KernelIdeal.main_arg12)
      ∧ m' (c, ReferenceIdeal.main_arg13) = m (c, KernelIdeal.main_arg13))
    (c : Dev KernelIdeal.nD) :
    StableHlo.after (ReferenceIdeal.RefRun.ops (F := 𝕀)) (StableHlo.launchContents m' c)
        (Proc.devRef .tc ReferenceIdeal.main_v85)
      = KernelIdeal.Gen.V18 m (outs m) c KernelIdeal.main_v88 := by
  obtain ⟨r0, r3, r4, r5, r6, r7, r8, r9, r10, r11, r12, r13, hrow, hcol⟩ :=
    PreFacts.of_pre _ _ _ _ _ _ _ _ _ _ _ _ _ _ (hpre c)
  have hr : ∀ e, 0 ≤ kRow m c e ∧ kRow m c e < 10000 := fun e => hrow (ix1 e)
  have hc : ∀ e, 0 ≤ kCol m c e ∧ kCol m c e < 10000 := fun e => hcol (ix1 e)
  rw [ReferenceIdeal.RefValue.result_eq, KernelIdeal.HandHost.v88_eq]
  simp only [StableHlo.launchContents, hagree c]
  refine congrArg (logSoftmaxStage (F := 𝕀)) (eq_of_mat_eq ?_)
  rw [logits_of_stages hc, hidden_of_stages hc, hidden_of_stages hc, layer3 m c hr hc, layer2 m c hr hc,
    layer1 m c hr hc]
  exact (net_eq hr hc (fun e => r3 (ix1 e)) (fun r j => r0 (ix2 r j)) (fun j f => r4 (ix2 j f))
    (fun f => r5 (ix1 f)) (fun f => r6 (ix1 f)) (fun f => r7 (ix1 f)) (fun j f => r8 (ix2 j f))
    (fun f => r9 (ix1 f)) (fun f => r10 (ix1 f)) (fun f => r11 (ix1 f))).symm

end Final

end Cert.Bridge

end
-- ==== Proof.lean ====
import proofs.«418163_j13657996001620_2_alg».proof.Defs
import proofs.«418163_j13657996001620_2_alg».proof.Proof.Gen.Kernel
import proofs.«418163_j13657996001620_2_alg».proof.Proof.Gen.KernelIdeal
import proofs.«418163_j13657996001620_2_alg».proof.Proof.Gen.ReferenceIdeal
import proofs.«418163_j13657996001620_2_alg».proof.Proof.Gen.Pre_finite_inputs
import proofs.«418163_j13657996001620_2_alg».proof.Proof.Kernel.Run
import proofs.«418163_j13657996001620_2_alg».proof.Proof.KernelIdeal.Run
import proofs.«418163_j13657996001620_2_alg».proof.Proof.RefRun
import proofs.«418163_j13657996001620_2_alg».proof.Proof.Bridge
import Idealize.ShloMosaic.Adequacy
import Idealize.ShloMosaic.Init

noncomputable section

namespace Cert.Proof

open Idealize.ShloMosaic Idealize.SL.Sem Cert.ReferenceIdeal

theorem frame_Kernel : Cert.frame_Kernel := fun m ρ _ => Cert.Kernel.Hand.frame m ρ

theorem frame_KernelIdeal : Cert.frame_KernelIdeal := fun m ρ _ => Cert.KernelIdeal.Hand.frame m ρ

/-- The reference is a straight line of operations none of which writes an argument. -/
theorem frame_ReferenceIdeal : Cert.frame_ReferenceIdeal := fun m ρ _ =>
  (θ_run Cert.ReferenceIdeal.defs _ _).mono (fun r h c => by
    obtain ⟨h0, h1, h2, h3, h4, h5, h6, h7, h8, h9, h10, h11, h12, h13⟩ := RefRun.run_args (F := Ideal) (StableHlo.launchContents m c)
    exact ⟨(h c _).trans h0, (h c _).trans h1, (h c _).trans h2, (h c _).trans h3, (h c _).trans h4, (h c _).trans h5, (h c _).trans h6, (h c _).trans h7, (h c _).trans h8, (h c _).trans h9, (h c _).trans h10, (h c _).trans h11, (h c _).trans h12, (h c _).trans h13⟩)
    (RefRun.run_after (F := Ideal) m ρ)

/-- Both results are one array: a sum over a row's edges, regrouped by column, is the dense adjacency's row times the features. -/
theorem algebraic : Cert.algebraic_KernelIdeal_ReferenceIdeal := by
  intro m ρ m' ρ' hpre hagree
  refine ⟨_, Cert.KernelIdeal.Hand.run_value (F := Ideal) m ρ, ?_⟩
  refine (θ_run Cert.ReferenceIdeal.defs _ _).mono (fun r h c => ?_) (RefRun.run_after (F := Ideal) m' ρ')
  obtain ⟨h0, h1, h2, h3, h4, h5, h6, h7, h8, h9, h10, h11, h12, h13⟩ := RefRun.run_args (F := Ideal) (StableHlo.launchContents m' c)
  exact ⟨(h c main_v85).trans (Cert.Bridge.value_eq m m' hpre hagree c), (h c _).trans h0, (h c _).trans h1, (h c _).trans h2, (h c _).trans h3, (h c _).trans h4, (h c _).trans h5, (h c _).trans h6, (h c _).trans h7, (h c _).trans h8, (h c _).trans h9, (h c _).trans h10, (h c _).trans h11, (h c _).trans h12, (h c _).trans h13⟩

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, trivial, algebraic⟩

end Cert.Proof

end
